-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.truncf_extf.Statement Cert.KernelIdeal.S2048x50 .f32 .bf16
  ∧ IdealRules.truncf_extf.Statement Cert.KernelIdeal.S4096x200 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v117) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S524288x64 : Shape := ⟨2, ![524288, 64]⟩
abbrev S65536 : Shape := ⟨1, ![65536]⟩
abbrev S524288 : Shape := ⟨1, ![524288]⟩
abbrev S50x64 : Shape := ⟨2, ![50, 64]⟩
abbrev S200x64 : Shape := ⟨2, ![200, 64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S524288x64 : S_.BroadcastsInDim S524288x64 (![] : Fin 0 → Fin S524288x64.rank)
  reducesTo_S524288x64_S_d0_1 : S524288x64.ReducesTo [0, 1] S_
  bcast_S_S50x64 : S_.BroadcastsInDim S50x64 (![] : Fin 0 → Fin S50x64.rank)
  reducesTo_S50x64_S_d0_1 : S50x64.ReducesTo [0, 1] S_
  bcast_S_S200x64 : S_.BroadcastsInDim S200x64 (![] : Fin 0 → Fin S200x64.rank)
  reducesTo_S200x64_S_d0_1 : S200x64.ReducesTo [0, 1] S_
  bcast_S_S65536 : S_.BroadcastsInDim S65536 (![] : Fin 0 → Fin S65536.rank)
  reducesTo_S65536_S_d0 : S65536.ReducesTo [0] S_
  bcast_S_S524288 : S_.BroadcastsInDim S524288 (![] : Fin 0 → Fin S524288.rank)
  reducesTo_S524288_S_d0 : S524288.ReducesTo [0] S_

variable [Facts]

def fn_part1 {F : FTy → Type} [FloatOps F] (main_arg2 : IVec S65536 32) (main_arg3 : IVec S524288 32) (main_v13 : IVec S_ 1) (main_v16 : IVec S200x64 1) : IVec S_ 1 :=
  let main_c_5 : IVec S_ 1 := constantI S_ 1 1#1
  let main_v17 : IVec S_ 1 := (fun x v => Host.reduce IntOp.andi x v reducesTo_S200x64_S_d0_1 h_S_) main_v16 main_c_5
  let main_v18 : IVec S_ 1 := andi main_v13 main_v17
  let main_c_6 : IVec S_ 32 := constantI S_ 32 0#32
  let main_v19 : IVec S65536 32 := broadcastInDim S65536 ![] bcast_S_S65536 main_c_6
  let main_v20 : IVec S65536 1 := cmpi .sge main_arg2 main_v19
  let main_c_7 : IVec S_ 32 := constantI S_ 32 50#32
  let main_v21 : IVec S65536 32 := broadcastInDim S65536 ![] bcast_S_S65536 main_c_7
  let main_v22 : IVec S65536 1 := cmpi .slt main_arg2 main_v21
  let main_v23 : IVec S65536 1 := andi main_v20 main_v22
  let main_c_8 : IVec S_ 1 := constantI S_ 1 1#1
  let main_v24 : IVec S_ 1 := (fun x v => Host.reduce IntOp.andi x v reducesTo_S65536_S_d0 h_S_) main_v23 main_c_8
  let main_v25 : IVec S_ 1 := andi main_v18 main_v24
  let main_c_9 : IVec S_ 32 := constantI S_ 32 0#32
  let main_v26 : IVec S524288 32 := broadcastInDim S524288 ![] bcast_S_S524288 main_c_9
  let main_v27 : IVec S524288 1 := cmpi .sge main_arg3 main_v26
  let main_c_10 : IVec S_ 32 := constantI S_ 32 200#32
  let main_v28 : IVec S524288 32 := broadcastInDim S524288 ![] bcast_S_S524288 main_c_10
  let main_v29 : IVec S524288 1 := cmpi .slt main_arg3 main_v28
  let main_v30 : IVec S524288 1 := andi main_v27 main_v29
  let main_c_11 : IVec S_ 1 := constantI S_ 1 1#1
  let main_v31 : IVec S_ 1 := (fun x v => Host.reduce IntOp.andi x v reducesTo_S524288_S_d0 h_S_) main_v30 main_c_11
  let main_v32 : IVec S_ 1 := andi main_v25 main_v31
  main_v32

def fn {F : FTy → Type} [FloatOps F] (main_arg0 : FVec F S65536x64 .f32) (main_arg1 : FVec F S524288x64 .f32) (main_arg2 : IVec S65536 32) (main_arg3 : IVec S524288 32) (main_arg4 : FVec F S50x64 .f32) (main_arg5 : FVec F S200x64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S524288x64 .f32 := Host.absf main_arg1
  let main_cst_0 : FVec F S_ .f32 := constant S_ .f32 0x7F800000#32
  let main_v5 : FVec F S524288x64 .f32 := broadcastInDim S524288x64 ![] bcast_S_S524288x64 main_cst_0
  let main_v6 : IVec S524288x64 1 := cmpf .olt main_v4 main_v5
  let main_c_1 : IVec S_ 1 := constantI S_ 1 1#1
  let main_v7 : IVec S_ 1 := (fun x v => Host.reduce IntOp.andi x v reducesTo_S524288x64_S_d0_1 h_S_) main_v6 main_c_1
  let main_v8 : IVec S_ 1 := andi main_v3 main_v7
  let main_v9 : FVec F S50x64 .f32 := Host.absf main_arg4
  let main_cst_2 : FVec F S_ .f32 := constant S_ .f32 0x7F800000#32
  let main_v10 : FVec F S50x64 .f32 := broadcastInDim S50x64 ![] bcast_S_S50x64 main_cst_2
  let main_v11 : IVec S50x64 1 := cmpf .olt main_v9 main_v10
  let main_c_3 : IVec S_ 1 := constantI S_ 1 1#1
  let main_v12 : IVec S_ 1 := (fun x v => Host.reduce IntOp.andi x v reducesTo_S50x64_S_d0_1 h_S_) main_v11 main_c_3
  let main_v13 : IVec S_ 1 := andi main_v8 main_v12
  let main_v14 : FVec F S200x64 .f32 := Host.absf main_arg5
  let main_cst_4 : FVec F S_ .f32 := constant S_ .f32 0x7F800000#32
  let main_v15 : FVec F S200x64 .f32 := broadcastInDim S200x64 ![] bcast_S_S200x64 main_cst_4
  let main_v16 : IVec S200x64 1 := cmpf .olt main_v14 main_v15
  fn_part1 (F := F) main_arg2 main_arg3 main_v13 main_v16
-- ==== Kernel.lean ====
abbrev S65536x64 : Shape := ⟨2, ![65536, 64]⟩
abbrev S524288x64 : Shape := ⟨2, ![524288, 64]⟩
abbrev S65536 : Shape := ⟨1, ![65536]⟩
abbrev S524288 : Shape := ⟨1, ![524288]⟩
abbrev S50x64 : Shape := ⟨2, ![50, 64]⟩
abbrev S200x64 : Shape := ⟨2, ![200, 64]⟩
abbrev S65536x1 : Shape := ⟨2, ![65536, 1]⟩
abbrev S524288x1 : Shape := ⟨2, ![524288, 1]⟩
abbrev S2x50x64 : Shape := ⟨3, ![2, 50, 64]⟩
abbrev S2x1x50 : Shape := ⟨3, ![2, 1, 50]⟩
abbrev S2048x64 : Shape := ⟨2, ![2048, 64]⟩
abbrev S2048x1 : Shape := ⟨2, ![2048, 1]⟩
abbrev S1x50x64 : Shape := ⟨3, ![1, 50, 64]⟩
abbrev S1x1x50 : Shape := ⟨3, ![1, 1, 50]⟩
abbrev S1x50 : Shape := ⟨2, ![1, 50]⟩
abbrev S2048 : Shape := ⟨1, ![2048]⟩
abbrev S2048x50 : Shape := ⟨2, ![2048, 50]⟩
abbrev S50 : Shape := ⟨1, ![50]⟩
abbrev S_ : Shape := ⟨0, ![]⟩
abbrev S2x200x64 : Shape := ⟨3, ![2, 200, 64]⟩
abbrev S2x1x200 : Shape := ⟨3, ![2, 1, 200]⟩
abbrev S4096x64 : Shape := ⟨2, ![4096, 64]⟩
abbrev S4096x1 : Shape := ⟨2, ![4096, 1]⟩
abbrev S1x200x64 : Shape := ⟨3, ![1, 200, 64]⟩
abbrev S1x1x200 : Shape := ⟨3, ![1, 1, 200]⟩
abbrev S1x200 : Shape := ⟨2, ![1, 200]⟩
abbrev S4096 : Shape := ⟨1, ![4096]⟩
abbrev S4096x200 : Shape := ⟨2, ![4096, 200]⟩
abbrev S200 : Shape := ⟨1, ![200]⟩
abbrev S50x1 : Shape := ⟨2, ![50, 1]⟩
abbrev S200x1 : Shape := ⟨2, ![200, 1]⟩
abbrev S64x50 : Shape := ⟨2, ![64, 50]⟩
abbrev S2x1x1 : Shape := ⟨3, ![2, 1, 1]⟩
abbrev S1x1x1 : Shape := ⟨3, ![1, 1, 1]⟩
abbrev S1x1 : Shape := ⟨2, ![1, 1]⟩
abbrev S1 : Shape := ⟨1, ![1]⟩
abbrev S64x200 : Shape := ⟨2, ![64, 200]⟩

abbrev nBuf : Space → Nat
  | .hbm => 112
  | .vmem => 30
  | .smem => 0
  | _ => 0

abbrev bufTy : (tb : Table) → Fin (tcTables nBuf tb) → BufTy
  | .hbm, ⟨0, _⟩ => ⟨S65536x64, .f32⟩
  | .hbm, ⟨1, _⟩ => ⟨S524288x64, .f32⟩
  | .hbm, ⟨2, _⟩ => ⟨S65536, .i32⟩
  | .hbm, ⟨3, _⟩ => ⟨S524288, .i32⟩
  | .hbm, ⟨4, _⟩ => ⟨S50x64, .f32⟩
  | .hbm, ⟨5, _⟩ => ⟨S200x64, .f32⟩
  | .hbm, ⟨6, _⟩ => ⟨S65536x1, .i32⟩
  | .hbm, ⟨7, _⟩ => ⟨S524288x1, .i32⟩
  | .hbm, ⟨8, _⟩ => ⟨S2x50x64, .f32⟩
  | .hbm, ⟨9, _⟩ => ⟨S2x1x50, .f32⟩
  | .hbm, ⟨10, _⟩ => ⟨S_, .f32⟩
  | .hbm, ⟨11, _⟩ => ⟨S50x64, .f32⟩
  | .hbm, ⟨12, _⟩ => ⟨S_, .f32⟩
  | .hbm, ⟨13, _⟩ => ⟨S1x50, .f32⟩
  | .hbm, ⟨14, _⟩ => ⟨S50, .f32⟩
  | .hbm, ⟨15, _⟩ => ⟨S2x200x64, .f32⟩
  | .hbm, ⟨16, _⟩ => ⟨S2x1x200, .f32⟩
  | .hbm, ⟨17, _⟩ => ⟨S_, .f32⟩
  | .hbm, ⟨18, _⟩ => ⟨S200x64, .f32⟩
  | .hbm, ⟨19, _⟩ => ⟨S_, .f32⟩
  | .hbm, ⟨20, _⟩ => ⟨S1x200, .f32⟩
  | .hbm, ⟨21, _⟩ => ⟨S200, .f32⟩
  | .hbm, ⟨22, _⟩ => ⟨S_, .f32⟩
  | .hbm, ⟨23, _⟩ => ⟨S50, .f32⟩
  | .hbm, ⟨24, _⟩ => ⟨S50, .f32⟩
  | .hbm, ⟨25, _⟩ => ⟨S50x1, .f32⟩
  | .hbm, ⟨26, _⟩ => ⟨S50x64, .f32⟩
  | .hbm, ⟨27, _⟩ => ⟨S50x64, .f32⟩
  | .hbm, ⟨28, _⟩ => ⟨S50x64, .f32⟩
  | .hbm, ⟨29, _⟩ => ⟨S_, .f32⟩
  | .hbm, ⟨30, _⟩ => ⟨S50, .f32⟩
  | .hbm, ⟨31, _⟩ => ⟨S50x1, .f32⟩
  | .hbm, ⟨32, _⟩ => ⟨S50x1, .f32⟩
  | .hbm, ⟨33, _⟩ => ⟨S_, .f32⟩
  | .hbm, ⟨34, _⟩ => ⟨S50x1, .f32⟩
  | .hbm, ⟨35, _⟩ => ⟨S50x1, .f32⟩
  | .hbm, ⟨36, _⟩ => ⟨S50x64, .f32⟩
  | .hbm, ⟨37, _⟩ => ⟨S50x64, .f32⟩
  | .hbm, ⟨38, _⟩ => ⟨S_, .f32⟩
  | .hbm, ⟨39, _⟩ => ⟨S50x64, .f32⟩
  | .hbm, ⟨40, _⟩ => ⟨S50x64, .f32⟩
  | .hbm, ⟨41, _⟩ => ⟨S_, .f32⟩
  | .hbm, ⟨42, _⟩ => ⟨S50x64, .f32⟩
  | .hbm, ⟨43, _⟩ => ⟨S50x64, .f32⟩
  | .hbm, ⟨44, _⟩ => ⟨S50x64, .f32⟩
  | .hbm, ⟨45, _⟩ => ⟨S50x64, .f32⟩
  | .hbm, ⟨46, _⟩ => ⟨S_, .f32⟩
  | .hbm, ⟨47, _⟩ => ⟨S50, .f32⟩
  | .hbm, ⟨48, _⟩ => ⟨S50x1, .f32⟩
  | .hbm, ⟨49, _⟩ => ⟨S50x1, .f32⟩
  | .hbm, ⟨50, _⟩ => ⟨S_, .f32⟩
  | .hbm, ⟨51, _⟩ => ⟨S50x1, .f32⟩
  | .hbm, ⟨52, _⟩ => ⟨S50x1, .f32⟩
  | .hbm, ⟨53, _⟩ => ⟨S50x64, .f32⟩
  | .hbm, ⟨54, _⟩ => ⟨S50x64, .f32⟩
  | .hbm, ⟨55, _⟩ => ⟨S_, .f32⟩
  | .hbm, ⟨56, _⟩ => ⟨S50, .f32⟩
  | .hbm, ⟨57, _⟩ => ⟨S50, .i1⟩
  | .hbm, ⟨58, _⟩ => ⟨S50x1, .i1⟩
  | .hbm, ⟨59, _⟩ => ⟨S50x64, .i1⟩
  | .hbm, ⟨60, _⟩ => ⟨S50x64, .f32⟩
  | .hbm, ⟨61, _⟩ => ⟨S_, .f32⟩
  | .hbm, ⟨62, _⟩ => ⟨S200, .f32⟩
  | .hbm, ⟨63, _⟩ => ⟨S200, .f32⟩
  | .hbm, ⟨64, _⟩ => ⟨S200x1, .f32⟩
  | .hbm, ⟨65, _⟩ => ⟨S200x64, .f32⟩
  | .hbm, ⟨66, _⟩ => ⟨S200x64, .f32⟩
  | .hbm, ⟨67, _⟩ => ⟨S200x64, .f32⟩
  | .hbm, ⟨68, _⟩ => ⟨S_, .f32⟩
  | .hbm, ⟨69, _⟩ => ⟨S200, .f32⟩
  | .hbm, ⟨70, _⟩ => ⟨S200x1, .f32⟩
  | .hbm, ⟨71, _⟩ => ⟨S200x1, .f32⟩
  | .hbm, ⟨72, _⟩ => ⟨S_, .f32⟩
  | .hbm, ⟨73, _⟩ => ⟨S200x1, .f32⟩
  | .hbm, ⟨74, _⟩ => ⟨S200x1, .f32⟩
  | .hbm, ⟨75, _⟩ => ⟨S200x64, .f32⟩
  | .hbm, ⟨76, _⟩ => ⟨S200x64, .f32⟩
  | .hbm, ⟨77, _⟩ => ⟨S_, .f32⟩
  | .hbm, ⟨78, _⟩ => ⟨S200x64, .f32⟩
  | .hbm, ⟨79, _⟩ => ⟨S200x64, .f32⟩
  | .hbm, ⟨80, _⟩ => ⟨S_, .f32⟩
  | .hbm, ⟨81, _⟩ => ⟨S200x64, .f32⟩
  | .hbm, ⟨82, _⟩ => ⟨S200x64, .f32⟩
  | .hbm, ⟨83, _⟩ => ⟨S200x64, .f32⟩
  | .hbm, ⟨84, _⟩ => ⟨S200x64, .f32⟩
  | .hbm, ⟨85, _⟩ => ⟨S_, .f32⟩
  | .hbm, ⟨86, _⟩ => ⟨S200, .f32⟩
  | .hbm, ⟨87, _⟩ => ⟨S200x1, .f32⟩
  | .hbm, ⟨88, _⟩ => ⟨S200x1, .f32⟩
  | .hbm, ⟨89, _⟩ => ⟨S_, .f32⟩
  | .hbm, ⟨90, _⟩ => ⟨S200x1, .f32⟩
  | .hbm, ⟨91, _⟩ => ⟨S200x1, .f32⟩
  | .hbm, ⟨92, _⟩ => ⟨S200x64, .f32⟩
  | .hbm, ⟨93, _⟩ => ⟨S200x64, .f32⟩
  | .hbm, ⟨94, _⟩ => ⟨S_, .f32⟩
  | .hbm, ⟨95, _⟩ => ⟨S200, .f32⟩
  | .hbm, ⟨96, _⟩ => ⟨S200, .i1⟩
  | .hbm, ⟨97, _⟩ => ⟨S200x1, .i1⟩
  | .hbm, ⟨98, _⟩ => ⟨S200x64, .i1⟩
  | .hbm, ⟨99, _⟩ => ⟨S200x64, .f32⟩
  | .hbm, ⟨100, _⟩ => ⟨S64x50, .f32⟩
  | .hbm, ⟨101, _⟩ => ⟨S2x1x1, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S64x200, .f32⟩
  | .hbm, ⟨107, _⟩ => ⟨S2x1x1, .f32⟩
  | .hbm, ⟨108, _⟩ => ⟨S_, .f32⟩
  | .hbm, ⟨109, _⟩ => ⟨S_, .f32⟩
  | .hbm, ⟨110, _⟩ => ⟨S_, .f32⟩
  | .hbm, ⟨111, _⟩ => ⟨S_, .f32⟩
  | .local _ .vmem, ⟨0, _⟩ => ⟨S2048x64, .f32⟩
  | .local _ .vmem, ⟨1, _⟩ => ⟨S2048x64, .f32⟩
  | .local _ .vmem, ⟨2, _⟩ => ⟨S2048x1, .i32⟩
  | .local _ .vmem, ⟨3, _⟩ => ⟨S2048x1, .i32⟩
  | .local _ .vmem, ⟨4, _⟩ => ⟨S1x50x64, .f32⟩
  | .local _ .vmem, ⟨5, _⟩ => ⟨S1x50x64, .f32⟩
  | .local _ .vmem, ⟨6, _⟩ => ⟨S1x1x50, .f32⟩
  | .local _ .vmem, ⟨7, _⟩ => ⟨S1x1x50, .f32⟩
  | .local _ .vmem, ⟨8, _⟩ => ⟨S4096x64, .f32⟩
  | .local _ .vmem, ⟨9, _⟩ => ⟨S4096x64, .f32⟩
  | .local _ .vmem, ⟨10, _⟩ => ⟨S4096x1, .i32⟩
  | .local _ .vmem, ⟨11, _⟩ => ⟨S4096x1, .i32⟩
  | .local _ .vmem, ⟨12, _⟩ => ⟨S1x200x64, .f32⟩
  | .local _ .vmem, ⟨13, _⟩ => ⟨S1x200x64, .f32⟩
  | .local _ .vmem, ⟨14, _⟩ => ⟨S1x1x200, .f32⟩
  | .local _ .vmem, ⟨15, _⟩ => ⟨S1x1x200, .f32⟩
  | .local _ .vmem, ⟨16, _⟩ => ⟨S2048x64, .f32⟩
  | .local _ .vmem, ⟨17, _⟩ => ⟨S2048x64, .f32⟩
  | .local _ .vmem, ⟨18, _⟩ => ⟨S2048x1, .i32⟩
  | .local _ .vmem, ⟨19, _⟩ => ⟨S2048x1, .i32⟩
  | .local _ .vmem, ⟨20, _⟩ => ⟨S64x50, .f32⟩
  | .local _ .vmem, ⟨21, _⟩ => ⟨S1x1x1, .f32⟩
  | .local _ .vmem, ⟨22, _⟩ => ⟨S1x1x1, .f32⟩
  | .local _ .vmem, ⟨23, _⟩ => ⟨S4096x64, .f32⟩
  | .local _ .vmem, ⟨24, _⟩ => ⟨S4096x64, .f32⟩
  | .local _ .vmem, ⟨25, _⟩ => ⟨S4096x1, .i32⟩
  | .local _ .vmem, ⟨26, _⟩ => ⟨S4096x1, .i32⟩
  | .local _ .vmem, ⟨27, _⟩ => ⟨S64x200, .f32⟩
  | .local _ .vmem, ⟨28, _⟩ => ⟨S1x1x1, .f32⟩
  | .local _ .vmem, ⟨29, _⟩ => ⟨S1x1x1, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_cst_1 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_call0_v2 : Ref sig .tc := ⟨.hbm, 31, rfl⟩
abbrev main_v15 : Ref sig .tc := ⟨.hbm, 32, rfl⟩
abbrev main_cst_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_cst_6 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call1_v0 : Ref sig .tc := ⟨.hbm, 45, rfl⟩
abbrev main_call1_cst : Ref sig .tc := ⟨.hbm, 46, rfl⟩
abbrev main_call1_v1 : Ref sig .tc := ⟨.hbm, 47, rfl⟩
abbrev main_call1_v2 : Ref sig .tc := ⟨.hbm, 48, rfl⟩
abbrev main_v25 : Ref sig .tc := ⟨.hbm, 49, rfl⟩
abbrev main_cst_7 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_8 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call2_v0 : Ref sig .tc := ⟨.hbm, 59, rfl⟩
abbrev main_v33 : Ref sig .tc := ⟨.hbm, 60, rfl⟩
abbrev main_cst_9 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_call3_v0 : Ref sig .tc := ⟨.hbm, 67, rfl⟩
abbrev main_call3_cst : Ref sig .tc := ⟨.hbm, 68, rfl⟩
abbrev main_call3_v1 : Ref sig .tc := ⟨.hbm, 69, rfl⟩
abbrev main_call3_v2 : Ref sig .tc := ⟨.hbm, 70, rfl⟩
abbrev main_v39 : Ref sig .tc := ⟨.hbm, 71, rfl⟩
abbrev main_cst_10 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_cst_11 : Ref sig .tc := ⟨.hbm, 77, rfl⟩
abbrev main_v44 : Ref sig .tc := ⟨.hbm, 78, rfl⟩
abbrev main_v45 : Ref sig .tc := ⟨.hbm, 79, rfl⟩
abbrev main_cst_12 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_call4_v0 : Ref sig .tc := ⟨.hbm, 84, rfl⟩
abbrev main_call4_cst : Ref sig .tc := ⟨.hbm, 85, rfl⟩
abbrev main_call4_v1 : Ref sig .tc := ⟨.hbm, 86, rfl⟩
abbrev main_call4_v2 : Ref sig .tc := ⟨.hbm, 87, rfl⟩
abbrev main_v49 : Ref sig .tc := ⟨.hbm, 88, rfl⟩
abbrev main_cst_13 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_cst_14 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_call5_v0 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_cst_15 : Ref sig .tc := ⟨.hbm, 102, rfl⟩
abbrev main_v60 : Ref sig .tc := ⟨.hbm, 103, rfl⟩
abbrev main_cst_16 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_cst_17 : Ref sig .tc := ⟨.hbm, 108, rfl⟩
abbrev main_v64 : Ref sig .tc := ⟨.hbm, 109, rfl⟩
abbrev main_cst_18 : Ref sig .tc := ⟨.hbm, 110, rfl⟩
abbrev main_v65 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x50x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x50 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 64], ![false, false]⟩

def cc1_transform_0 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4096x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x200x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 16], ![false, false]⟩

def cc2_transform_0 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2048x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S64x50 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![2, 64], ![false, false]⟩

def cc3_transform_0 (i : grid3.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4096x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S64x200 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1x1x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

class Facts₀ : Prop where
  shapeCasts_S65536_S65536x1 : S65536.ShapeCasts S65536x1
  shapeCasts_S524288_S524288x1 : S524288.ShapeCasts S524288x1
  inb_S1x50x64_S1x50x64_0_0_0 : ∀ a, (![0, 0, 0] : Fin 3 → Nat) a + S1x50x64.size a ≤ S1x50x64.size a
  h_S1x50x64 : 0 < S1x50x64.numel
  shapeCasts_S1x50x64_S50x64 : S1x50x64.ShapeCasts S50x64
  shapeCasts_S50x64_S1x50x64 : S50x64.ShapeCasts S1x50x64
  inb_S1x1x50_S1x1x50_0_0_0 : ∀ a, (![0, 0, 0] : Fin 3 → Nat) a + S1x1x50.size a ≤ S1x1x50.size a
  h_S1x1x50 : 0 < S1x1x50.numel
  shapeCasts_S1x1x50_S1x50 : S1x1x50.ShapeCasts S1x50
  shapeCasts_S1x50_S1x1x50 : S1x50.ShapeCasts S1x1x50
  inb_S2048x64_S2048x64_0_0 : ∀ a, (![0, 0] : Fin 2 → Nat) a + S2048x64.size a ≤ S2048x64.size a
  h_S2048x64 : 0 < S2048x64.numel
  reduces_S2048x64_S2048 : S2048x64.Reduces [1] S2048
  shapeCasts_S2048_S2048x1 : S2048.ShapeCasts S2048x1
  broadcasts_S2048x1_S2048x64 : S2048x1.Broadcasts S2048x64
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x50_d1_w32 : S2048x50.Iotas .tc 32 [1]
  broadcasts_S2048x1_S2048x50 : S2048x1.Broadcasts S2048x50
  natLt_1_32 : 1 < 32
  bitsLt_bf16_f32 : FTy.bits .bf16 < FTy.bits .f32
  reduces_S2048x50_S50 : S2048x50.Reduces [0] S50
  shapeCasts_S50_S1x50 : S50.ShapeCasts S1x50
  reducesTo_S2x50x64_S50x64_d0 : S2x50x64.ReducesTo [0] S50x64
  h_S_ : 0 < S_.numel
  reducesTo_S2x1x50_S1x50_d0 : S2x1x50.ReducesTo [0] S1x50
  shapeCasts_S1x50_S50 : S1x50.ShapeCasts S50
  inb_S1x200x64_S1x200x64_0_0_0 : ∀ a, (![0, 0, 0] : Fin 3 → Nat) a + S1x200x64.size a ≤ S1x200x64.size a
  h_S1x200x64 : 0 < S1x200x64.numel
  shapeCasts_S1x200x64_S200x64 : S1x200x64.ShapeCasts S200x64
  shapeCasts_S200x64_S1x200x64 : S200x64.ShapeCasts S1x200x64
  inb_S1x1x200_S1x1x200_0_0_0 : ∀ a, (![0, 0, 0] : Fin 3 → Nat) a + S1x1x200.size a ≤ S1x1x200.size a
  h_S1x1x200 : 0 < S1x1x200.numel
  shapeCasts_S1x1x200_S1x200 : S1x1x200.ShapeCasts S1x200
  shapeCasts_S1x200_S1x1x200 : S1x200.ShapeCasts S1x1x200
  inb_S4096x64_S4096x64_0_0 : ∀ a, (![0, 0] : Fin 2 → Nat) a + S4096x64.size a ≤ S4096x64.size a
  h_S4096x64 : 0 < S4096x64.numel
  reduces_S4096x64_S4096 : S4096x64.Reduces [1] S4096
  shapeCasts_S4096_S4096x1 : S4096.ShapeCasts S4096x1
  broadcasts_S4096x1_S4096x64 : S4096x1.Broadcasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  iota_S4096x200_d1_w32 : S4096x200.Iotas .tc 32 [1]
  broadcasts_S4096x1_S4096x200 : S4096x1.Broadcasts S4096x200
  reduces_S4096x200_S200 : S4096x200.Reduces [0] S200
  shapeCasts_S200_S1x200 : S200.ShapeCasts S1x200
  reducesTo_S2x200x64_S200x64_d0 : S2x200x64.ReducesTo [0] S200x64
  reducesTo_S2x1x200_S1x200_d0 : S2x1x200.ReducesTo [0] S1x200
  shapeCasts_S1x200_S200 : S1x200.ShapeCasts S200
  bcast_S_S50 : S_.BroadcastsInDim S50 (![] : Fin 0 → Fin S50.rank)
  bcast_S50_S50x1_0 : S50.BroadcastsInDim S50x1 (![0] : Fin 1 → Fin S50x1.rank)
  bcast_S50x1_S50x64_0_1 : S50x1.BroadcastsInDim S50x64 (![0, 1] : Fin 2 → Fin S50x64.rank)
  reducesTo_S50x64_S50_d1 : S50x64.ReducesTo [1] S50
  bcast_S_S50x1 : S_.BroadcastsInDim S50x1 (![] : Fin 0 → Fin S50x1.rank)
  bcast_S_S50x64 : S_.BroadcastsInDim S50x64 (![] : Fin 0 → Fin S50x64.rank)
  bcast_S_S200 : S_.BroadcastsInDim S200 (![] : Fin 0 → Fin S200.rank)
  bcast_S200_S200x1_0 : S200.BroadcastsInDim S200x1 (![0] : Fin 1 → Fin S200x1.rank)
  bcast_S200x1_S200x64_0_1 : S200x1.BroadcastsInDim S200x64 (![0, 1] : Fin 2 → Fin S200x64.rank)
  reducesTo_S200x64_S200_d1 : S200x64.ReducesTo [1] S200
  bcast_S_S200x1 : S_.BroadcastsInDim S200x1 (![] : Fin 0 → Fin S200x1.rank)
  bcast_S_S200x64 : S_.BroadcastsInDim S200x64 (![] : Fin 0 → Fin S200x64.rank)
  transposes_S50x64_S64x50_1_0 : S50x64.Transposes [1, 0] S64x50
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S64x50_S64x50_0_0 : ∀ a, (![0, 0] : Fin 2 → Nat) a + S64x50.size a ≤ S64x50.size a
  h_S64x50 : 0 < S64x50.numel
  shapeCasts_S64x50_S64x50 : S64x50.ShapeCasts S64x50
  reduces_S2048x50_S2048 : S2048x50.Reduces [1] S2048
  reduces_S2048x1_S1 : S2048x1.Reduces [0] S1
  shapeCasts_S1_S1x1 : S1.ShapeCasts S1x1
  reducesTo_S2x1x1_S_d0_1_2 : S2x1x1.ReducesTo [0, 1, 2] S_
  transposes_S200x64_S64x200_1_0 : S200x64.Transposes [1, 0] S64x200
  inb_S64x200_S64x200_0_0 : ∀ a, (![0, 0] : Fin 2 → Nat) a + S64x200.size a ≤ S64x200.size a
  h_S64x200 : 0 < S64x200.numel
  shapeCasts_S64x200_S64x200 : S64x200.ShapeCasts S64x200
  reduces_S4096x200_S4096 : S4096x200.Reduces [1] S4096
  reduces_S4096x1_S1 : S4096x1.Reduces [0] S1
  dot_S2048x50_S2048x64_S50x64_0_0_1_1_n_n_wf : DotDims.WF S2048x50 S2048x64 S50x64 [0] [0] [1] [1] [] []
  dot_S4096x200_S4096x64_S200x64_0_0_1_1_n_n_wf : DotDims.WF S4096x200 S4096x64 S200x64 [0] [0] [1] [1] [] []
  dot_S2048x64_S64x50_S2048x50_1_0_0_1_n_n_wf : DotDims.WF S2048x64 S64x50 S2048x50 [1] [0] [0] [1] [] []
  dot_S4096x64_S64x200_S4096x200_1_0_0_1_n_n_wf : DotDims.WF S4096x64 S64x200 S4096x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S65536x64.size a
  hwx0_0 : ∀ i : grid0.Coords, EltTy.bits .f32 = 32 ∨ (Rect.block (s := S65536x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S65536x1.size a
  hwx0_1 : ∀ i : grid0.Coords, EltTy.bits .i32 = 32 ∨ (Rect.block (s := S65536x1) S2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x50x64.size a ≤ S2x50x64.size a
  hwx0_2 : ∀ i : grid0.Coords, EltTy.bits .f32 = 32 ∨ (Rect.block (s := S2x50x64) S1x50x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x50.size a ≤ S2x1x50.size a
  hwx0_3 : ∀ i : grid0.Coords, EltTy.bits .f32 = 32 ∨ (Rect.block (s := S2x1x50) S1x1x50.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x64.size a ≤ S524288x64.size a
  hwx1_0 : ∀ i : grid1.Coords, EltTy.bits .f32 = 32 ∨ (Rect.block (s := S524288x64) S4096x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1.size a ≤ S524288x1.size a
  hwx1_1 : ∀ i : grid1.Coords, EltTy.bits .i32 = 32 ∨ (Rect.block (s := S524288x1) S4096x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x200x64.size a ≤ S2x200x64.size a
  hwx1_2 : ∀ i : grid1.Coords, EltTy.bits .f32 = 32 ∨ (Rect.block (s := S2x200x64) S1x200x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x200.size a ≤ S2x1x200.size a
  hwx1_3 : ∀ i : grid1.Coords, EltTy.bits .f32 = 32 ∨ (Rect.block (s := S2x1x200) S1x1x200.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S65536x64.size a
  hwx2_0 : ∀ i : grid2.Coords, EltTy.bits .f32 = 32 ∨ (Rect.block (s := S65536x64) S2048x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x1.size a ≤ S65536x1.size a
  hwx2_1 : ∀ i : grid2.Coords, EltTy.bits .i32 = 32 ∨ (Rect.block (s := S65536x1) S2048x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x50.size a ≤ S64x50.size a
  hwx2_2 : ∀ i : grid2.Coords, EltTy.bits .f32 = 32 ∨ (Rect.block (s := S64x50) S64x50.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1x1.size a ≤ S2x1x1.size a
  hwx2_3 : ∀ i : grid2.Coords, EltTy.bits .f32 = 32 ∨ (Rect.block (s := S2x1x1) S1x1x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x64.size a ≤ S524288x64.size a
  hwx3_0 : ∀ i : grid3.Coords, EltTy.bits .f32 = 32 ∨ (Rect.block (s := S524288x64) S4096x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x1.size a ≤ S524288x1.size a
  hwx3_1 : ∀ i : grid3.Coords, EltTy.bits .i32 = 32 ∨ (Rect.block (s := S524288x1) S4096x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x200.size a ≤ S64x200.size a
  hwx3_2 : ∀ i : grid3.Coords, EltTy.bits .f32 = 32 ∨ (Rect.block (s := S64x200) S64x200.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x1.size a ≤ S2x1x1.size a
  hwx3_3 : ∀ i : grid3.Coords, EltTy.bits .f32 = 32 ∨ (Rect.block (s := S2x1x1) S1x1x1.size (cc3_transform_3 i) (hinb3_3 i)).WholeWords (EltTy.packing .f32)

variable [Facts₀]

def dot_S2048x50_S2048x64_S50x64_0_0_1_1_n_n : DotDims S2048x50 S2048x64 S50x64 where
  lhsContracting := [0]
  rhsContracting := [0]
  lhsNonContracting := [1]
  rhsNonContracting := [1]
  lhsBatch := []
  rhsBatch := []
  wf := dot_S2048x50_S2048x64_S50x64_0_0_1_1_n_n_wf
def dot_S4096x200_S4096x64_S200x64_0_0_1_1_n_n : DotDims S4096x200 S4096x64 S200x64 where
  lhsContracting := [0]
  rhsContracting := [0]
  lhsNonContracting := [1]
  rhsNonContracting := [1]
  lhsBatch := []
  rhsBatch := []
  wf := dot_S4096x200_S4096x64_S200x64_0_0_1_1_n_n_wf
def dot_S2048x64_S64x50_S2048x50_1_0_0_1_n_n : DotDims S2048x64 S64x50 S2048x50 where
  lhsContracting := [1]
  rhsContracting := [0]
  lhsNonContracting := [0]
  rhsNonContracting := [1]
  lhsBatch := []
  rhsBatch := []
  wf := dot_S2048x64_S64x50_S2048x50_1_0_0_1_n_n_wf
def dot_S4096x64_S64x200_S4096x200_1_0_0_1_n_n : DotDims S4096x64 S64x200 S4096x200 where
  lhsContracting := [1]
  rhsContracting := [0]
  lhsNonContracting := [0]
  rhsNonContracting := [1]
  lhsBatch := []
  rhsBatch := []
  wf := dot_S4096x64_S64x200_S4096x200_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x50x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x50.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S4096x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_0) S1x200x64.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6_1) S1x1x200.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg0) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v0) S2048x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v58) S64x50.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S1x1x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S4096x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S4096x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S64x200.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x1x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S65536x64 : Shape := ⟨2, ![65536, 64]⟩
abbrev S524288x64 : Shape := ⟨2, ![524288, 64]⟩
abbrev S65536 : Shape := ⟨1, ![65536]⟩
abbrev S524288 : Shape := ⟨1, ![524288]⟩
abbrev S50x64 : Shape := ⟨2, ![50, 64]⟩
abbrev S200x64 : Shape := ⟨2, ![200, 64]⟩
abbrev S_ : Shape := ⟨0, ![]⟩
abbrev S65536x1 : Shape := ⟨2, ![65536, 1]⟩
abbrev S50 : Shape := ⟨1, ![50]⟩
abbrev S50x1 : Shape := ⟨2, ![50, 1]⟩
abbrev S524288x1 : Shape := ⟨2, ![524288, 1]⟩
abbrev S200 : Shape := ⟨1, ![200]⟩
abbrev S200x1 : Shape := ⟨2, ![200, 1]⟩
abbrev S64x50 : Shape := ⟨2, ![64, 50]⟩
abbrev S65536x50 : Shape := ⟨2, ![65536, 50]⟩
abbrev S65536x1x1 : Shape := ⟨3, ![65536, 1, 1]⟩
abbrev S1 : Shape := ⟨1, ![1]⟩
abbrev S1x1x1 : Shape := ⟨3, ![1, 1, 1]⟩
abbrev S64x200 : Shape := ⟨2, ![64, 200]⟩
abbrev S524288x200 : Shape := ⟨2, ![524288, 200]⟩
abbrev S524288x1x1 : Shape := ⟨3, ![524288, 1, 1]⟩

abbrev nBuf : Space → Nat
  | .hbm => 272
  | .vmem => 0
  | .smem => 0
  | _ => 0

abbrev hbmTy0_0 (i : Nat) : BufTy := match i % 128 with
  | 0 => ⟨S65536x64, .f32⟩
  | 1 => ⟨S524288x64, .f32⟩
  | 2 => ⟨S65536, .i32⟩
  | 3 => ⟨S524288, .i32⟩
  | 4 => ⟨S50x64, .f32⟩
  | 5 => ⟨S200x64, .f32⟩
  | 6 => ⟨S65536x64, .f32⟩
  | 7 => ⟨S_, .f32⟩
  | 8 => ⟨S65536, .f32⟩
  | 9 => ⟨S65536x1, .f32⟩
  | 10 => ⟨S65536x1, .f32⟩
  | 11 => ⟨S_, .f32⟩
  | 12 => ⟨S65536x1, .f32⟩
  | 13 => ⟨S65536x1, .f32⟩
  | 14 => ⟨S65536x64, .f32⟩
  | 15 => ⟨S65536x64, .f32⟩
  | 16 => ⟨S_, .f32⟩
  | 17 => ⟨S50x64, .f32⟩
  | 18 => ⟨S65536x1, .i32⟩
  | 19 => ⟨S50x64, .f32⟩
  | 20 => ⟨S_, .f32⟩
  | 21 => ⟨S65536, .f32⟩
  | 22 => ⟨S_, .f32⟩
  | 23 => ⟨S50, .f32⟩
  | 24 => ⟨S65536x1, .i32⟩
  | 25 => ⟨S50, .f32⟩
  | 26 => ⟨S_, .f32⟩
  | 27 => ⟨S50, .f32⟩
  | 28 => ⟨S50, .f32⟩
  | 29 => ⟨S50x1, .f32⟩
  | 30 => ⟨S50x64, .f32⟩
  | 31 => ⟨S50x64, .f32⟩
  | 32 => ⟨S50x64, .f32⟩
  | 33 => ⟨S_, .f32⟩
  | 34 => ⟨S50, .f32⟩
  | 35 => ⟨S50x1, .f32⟩
  | 36 => ⟨S50x1, .f32⟩
  | 37 => ⟨S_, .f32⟩
  | 38 => ⟨S50x1, .f32⟩
  | 39 => ⟨S50x1, .f32⟩
  | 40 => ⟨S50x64, .f32⟩
  | 41 => ⟨S50x64, .f32⟩
  | 42 => ⟨S_, .f32⟩
  | 43 => ⟨S50x64, .f32⟩
  | 44 => ⟨S50x64, .f32⟩
  | 45 => ⟨S_, .f32⟩
  | 46 => ⟨S50x64, .f32⟩
  | 47 => ⟨S50x64, .f32⟩
  | 48 => ⟨S50x64, .f32⟩
  | 49 => ⟨S50x64, .f32⟩
  | 50 => ⟨S_, .f32⟩
  | 51 => ⟨S50, .f32⟩
  | 52 => ⟨S50x1, .f32⟩
  | 53 => ⟨S50x1, .f32⟩
  | 54 => ⟨S_, .f32⟩
  | 55 => ⟨S50x1, .f32⟩
  | 56 => ⟨S50x1, .f32⟩
  | 57 => ⟨S50x64, .f32⟩
  | 58 => ⟨S50x64, .f32⟩
  | 59 => ⟨S_, .f32⟩
  | 60 => ⟨S50, .f32⟩
  | 61 => ⟨S50, .i1⟩
  | 62 => ⟨S50x1, .i1⟩
  | 63 => ⟨S50x64, .i1⟩
  | 64 => ⟨S50x64, .f32⟩
  | 65 => ⟨S524288x64, .f32⟩
  | 66 => ⟨S_, .f32⟩
  | 67 => ⟨S524288, .f32⟩
  | 68 => ⟨S524288x1, .f32⟩
  | 69 => ⟨S524288x1, .f32⟩
  | 70 => ⟨S_, .f32⟩
  | 71 => ⟨S524288x1, .f32⟩
  | 72 => ⟨S524288x1, .f32⟩
  | 73 => ⟨S524288x64, .f32⟩
  | 74 => ⟨S524288x64, .f32⟩
  | 75 => ⟨S_, .f32⟩
  | 76 => ⟨S200x64, .f32⟩
  | 77 => ⟨S524288x1, .i32⟩
  | 78 => ⟨S200x64, .f32⟩
  | 79 => ⟨S_, .f32⟩
  | 80 => ⟨S524288, .f32⟩
  | 81 => ⟨S_, .f32⟩
  | 82 => ⟨S200, .f32⟩
  | 83 => ⟨S524288x1, .i32⟩
  | 84 => ⟨S200, .f32⟩
  | 85 => ⟨S_, .f32⟩
  | 86 => ⟨S200, .f32⟩
  | 87 => ⟨S200, .f32⟩
  | 88 => ⟨S200x1, .f32⟩
  | 89 => ⟨S200x64, .f32⟩
  | 90 => ⟨S200x64, .f32⟩
  | 91 => ⟨S200x64, .f32⟩
  | 92 => ⟨S_, .f32⟩
  | 93 => ⟨S200, .f32⟩
  | 94 => ⟨S200x1, .f32⟩
  | 95 => ⟨S200x1, .f32⟩
  | 96 => ⟨S_, .f32⟩
  | 97 => ⟨S200x1, .f32⟩
  | 98 => ⟨S200x1, .f32⟩
  | 99 => ⟨S200x64, .f32⟩
  | 100 => ⟨S200x64, .f32⟩
  | 101 => ⟨S_, .f32⟩
  | 102 => ⟨S200x64, .f32⟩
  | 103 => ⟨S200x64, .f32⟩
  | 104 => ⟨S_, .f32⟩
  | 105 => ⟨S200x64, .f32⟩
  | 106 => ⟨S200x64, .f32⟩
  | 107 => ⟨S200x64, .f32⟩
  | 108 => ⟨S200x64, .f32⟩
  | 109 => ⟨S_, .f32⟩
  | 110 => ⟨S200, .f32⟩
  | 111 => ⟨S200x1, .f32⟩
  | 112 => ⟨S200x1, .f32⟩
  | 113 => ⟨S_, .f32⟩
  | 114 => ⟨S200x1, .f32⟩
  | 115 => ⟨S200x1, .f32⟩
  | 116 => ⟨S200x64, .f32⟩
  | 117 => ⟨S200x64, .f32⟩
  | 118 => ⟨S_, .f32⟩
  | 119 => ⟨S200, .f32⟩
  | 120 => ⟨S200, .i1⟩
  | 121 => ⟨S200x1, .i1⟩
  | 122 => ⟨S200x64, .i1⟩
  | 123 => ⟨S200x64, .f32⟩
  | 124 => ⟨S_, .i32⟩
  | 125 => ⟨S65536, .i32⟩
  | 126 => ⟨S65536, .i1⟩
  | 127 => ⟨S_, .i32⟩
  | _ => ⟨S65536x64, .f32⟩

abbrev hbmTy0_1 (i : Nat) : BufTy := match i % 128 with
  | 0 => ⟨S_, .i32⟩
  | 1 => ⟨S65536, .i32⟩
  | 2 => ⟨S65536, .i32⟩
  | 3 => ⟨S65536x64, .f32⟩
  | 4 => ⟨S_, .f32⟩
  | 5 => ⟨S65536, .f32⟩
  | 6 => ⟨S65536x1, .f32⟩
  | 7 => ⟨S65536x1, .f32⟩
  | 8 => ⟨S_, .f32⟩
  | 9 => ⟨S65536x1, .f32⟩
  | 10 => ⟨S65536x1, .f32⟩
  | 11 => ⟨S65536x64, .f32⟩
  | 12 => ⟨S65536x64, .f32⟩
  | 13 => ⟨S64x50, .f32⟩
  | 14 => ⟨S65536x50, .f32⟩
  | 15 => ⟨S_, .f32⟩
  | 16 => ⟨S65536x50, .f32⟩
  | 17 => ⟨S65536x50, .f32⟩
  | 18 => ⟨S_, .f32⟩
  | 19 => ⟨S65536, .f32⟩
  | 20 => ⟨S_, .f32⟩
  | 21 => ⟨S65536, .f32⟩
  | 22 => ⟨S65536, .f32⟩
  | 23 => ⟨S65536x1, .f32⟩
  | 24 => ⟨S65536x50, .f32⟩
  | 25 => ⟨S65536x50, .f32⟩
  | 26 => ⟨S65536x50, .f32⟩
  | 27 => ⟨S_, .f32⟩
  | 28 => ⟨S65536, .f32⟩
  | 29 => ⟨S65536x1, .f32⟩
  | 30 => ⟨S65536x1, .f32⟩
  | 31 => ⟨S65536x50, .f32⟩
  | 32 => ⟨S65536x50, .f32⟩
  | 33 => ⟨S65536x1, .i32⟩
  | 34 => ⟨S_, .i32⟩
  | 35 => ⟨S65536x1, .i32⟩
  | 36 => ⟨S65536x1, .i1⟩
  | 37 => ⟨S_, .i32⟩
  | 38 => ⟨S65536x1, .i32⟩
  | 39 => ⟨S65536x1, .i32⟩
  | 40 => ⟨S65536x1, .i32⟩
  | 41 => ⟨S65536x1x1, .i32⟩
  | 42 => ⟨S1, .i32⟩
  | 43 => ⟨S_, .i32⟩
  | 44 => ⟨S65536x1x1, .i32⟩
  | 45 => ⟨S65536x1x1, .i1⟩
  | 46 => ⟨S1x1x1, .i32⟩
  | 47 => ⟨S65536x1x1, .i32⟩
  | 48 => ⟨S65536x1x1, .i1⟩
  | 49 => ⟨S65536x1x1, .i1⟩
  | 50 => ⟨S_, .i1⟩
  | 51 => ⟨S65536x1, .i1⟩
  | 52 => ⟨S65536x1, .f32⟩
  | 53 => ⟨S_, .f32⟩
  | 54 => ⟨S65536x1, .f32⟩
  | 55 => ⟨S65536x1, .f32⟩
  | 56 => ⟨S65536, .f32⟩
  | 57 => ⟨S65536, .f32⟩
  | 58 => ⟨S65536, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S65536, .f32⟩
  | 66 => ⟨S65536, .f32⟩
  | 67 => ⟨S_, .f32⟩
  | 68 => ⟨S_, .f32⟩
  | 69 => ⟨S_, .f32⟩
  | 70 => ⟨S_, .i32⟩
  | 71 => ⟨S524288, .i32⟩
  | 72 => ⟨S524288, .i1⟩
  | 73 => ⟨S_, .i32⟩
  | 74 => ⟨S_, .i32⟩
  | 75 => ⟨S524288, .i32⟩
  | 76 => ⟨S524288, .i32⟩
  | 77 => ⟨S524288x64, .f32⟩
  | 78 => ⟨S_, .f32⟩
  | 79 => ⟨S524288, .f32⟩
  | 80 => ⟨S524288x1, .f32⟩
  | 81 => ⟨S524288x1, .f32⟩
  | 82 => ⟨S_, .f32⟩
  | 83 => ⟨S524288x1, .f32⟩
  | 84 => ⟨S524288x1, .f32⟩
  | 85 => ⟨S524288x64, .f32⟩
  | 86 => ⟨S524288x64, .f32⟩
  | 87 => ⟨S64x200, .f32⟩
  | 88 => ⟨S524288x200, .f32⟩
  | 89 => ⟨S_, .f32⟩
  | 90 => ⟨S524288x200, .f32⟩
  | 91 => ⟨S524288x200, .f32⟩
  | 92 => ⟨S_, .f32⟩
  | 93 => ⟨S524288, .f32⟩
  | 94 => ⟨S_, .f32⟩
  | 95 => ⟨S524288, .f32⟩
  | 96 => ⟨S524288, .f32⟩
  | 97 => ⟨S524288x1, .f32⟩
  | 98 => ⟨S524288x200, .f32⟩
  | 99 => ⟨S524288x200, .f32⟩
  | 100 => ⟨S524288x200, .f32⟩
  | 101 => ⟨S_, .f32⟩
  | 102 => ⟨S524288, .f32⟩
  | 103 => ⟨S524288x1, .f32⟩
  | 104 => ⟨S524288x1, .f32⟩
  | 105 => ⟨S524288x200, .f32⟩
  | 106 => ⟨S524288x200, .f32⟩
  | 107 => ⟨S524288x1, .i32⟩
  | 108 => ⟨S_, .i32⟩
  | 109 => ⟨S524288x1, .i32⟩
  | 110 => ⟨S524288x1, .i1⟩
  | 111 => ⟨S_, .i32⟩
  | 112 => ⟨S524288x1, .i32⟩
  | 113 => ⟨S524288x1, .i32⟩
  | 114 => ⟨S524288x1, .i32⟩
  | 115 => ⟨S524288x1x1, .i32⟩
  | 116 => ⟨S1, .i32⟩
  | 117 => ⟨S_, .i32⟩
  | 118 => ⟨S524288x1x1, .i32⟩
  | 119 => ⟨S524288x1x1, .i1⟩
  | 120 => ⟨S1x1x1, .i32⟩
  | 121 => ⟨S524288x1x1, .i32⟩
  | 122 => ⟨S524288x1x1, .i1⟩
  | 123 => ⟨S524288x1x1, .i1⟩
  | 124 => ⟨S_, .i1⟩
  | 125 => ⟨S524288x1, .i1⟩
  | 126 => ⟨S524288x1, .f32⟩
  | 127 => ⟨S_, .f32⟩
  | _ => ⟨S65536x64, .f32⟩

abbrev hbmTy0_2 (i : Nat) : BufTy := match i % 128 with
  | 0 => ⟨S524288x1, .f32⟩
  | 1 => ⟨S524288x1, .f32⟩
  | 2 => ⟨S524288, .f32⟩
  | 3 => ⟨S524288, .f32⟩
  | 4 => ⟨S524288, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S524288, .f32⟩
  | 12 => ⟨S524288, .f32⟩
  | 13 => ⟨S_, .f32⟩
  | 14 => ⟨S_, .f32⟩
  | 15 => ⟨S_, .f32⟩
  | _ => ⟨S65536x64, .f32⟩

abbrev hbmTy (i : Nat) : BufTy := match i / 128 with
  | 0 => hbmTy0_0 i
  | 1 => hbmTy0_1 i
  | 2 => hbmTy0_2 i
  | _ => ⟨S65536x64, .f32⟩

abbrev bufTy : (tb : Table) → Fin (tcTables nBuf tb) → BufTy
  | .hbm, ⟨i, _⟩ => hbmTy i
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call1_v0 : Ref sig .tc := ⟨.hbm, 32, rfl⟩
abbrev main_call1_cst : Ref sig .tc := ⟨.hbm, 33, rfl⟩
abbrev main_call1_v1 : Ref sig .tc := ⟨.hbm, 34, rfl⟩
abbrev main_call1_v2 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_cst_6 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call2_v0 : Ref sig .tc := ⟨.hbm, 49, rfl⟩
abbrev main_call2_cst : Ref sig .tc := ⟨.hbm, 50, rfl⟩
abbrev main_call2_v1 : Ref sig .tc := ⟨.hbm, 51, rfl⟩
abbrev main_call2_v2 : Ref sig .tc := ⟨.hbm, 52, rfl⟩
abbrev main_v27 : Ref sig .tc := ⟨.hbm, 53, rfl⟩
abbrev main_cst_7 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_8 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call3_v0 : Ref sig .tc := ⟨.hbm, 63, rfl⟩
abbrev main_v35 : Ref sig .tc := ⟨.hbm, 64, rfl⟩
abbrev main_call4_v0 : Ref sig .tc := ⟨.hbm, 65, rfl⟩
abbrev main_call4_cst : Ref sig .tc := ⟨.hbm, 66, rfl⟩
abbrev main_call4_v1 : Ref sig .tc := ⟨.hbm, 67, rfl⟩
abbrev main_call4_v2 : Ref sig .tc := ⟨.hbm, 68, rfl⟩
abbrev main_v36 : Ref sig .tc := ⟨.hbm, 69, rfl⟩
abbrev main_cst_9 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_10 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_cst_11 : Ref sig .tc := ⟨.hbm, 79, rfl⟩
abbrev main_v44 : Ref sig .tc := ⟨.hbm, 80, rfl⟩
abbrev main_cst_12 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_13 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_call5_v0 : Ref sig .tc := ⟨.hbm, 91, rfl⟩
abbrev main_call5_cst : Ref sig .tc := ⟨.hbm, 92, rfl⟩
abbrev main_call5_v1 : Ref sig .tc := ⟨.hbm, 93, rfl⟩
abbrev main_call5_v2 : Ref sig .tc := ⟨.hbm, 94, rfl⟩
abbrev main_v53 : Ref sig .tc := ⟨.hbm, 95, rfl⟩
abbrev main_cst_14 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_cst_15 : Ref sig .tc := ⟨.hbm, 101, rfl⟩
abbrev main_v58 : Ref sig .tc := ⟨.hbm, 102, rfl⟩
abbrev main_v59 : Ref sig .tc := ⟨.hbm, 103, rfl⟩
abbrev main_cst_16 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_call6_v0 : Ref sig .tc := ⟨.hbm, 108, rfl⟩
abbrev main_call6_cst : Ref sig .tc := ⟨.hbm, 109, rfl⟩
abbrev main_call6_v1 : Ref sig .tc := ⟨.hbm, 110, rfl⟩
abbrev main_call6_v2 : Ref sig .tc := ⟨.hbm, 111, rfl⟩
abbrev main_v63 : Ref sig .tc := ⟨.hbm, 112, rfl⟩
abbrev main_cst_17 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_cst_18 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_call7_v0 : Ref sig .tc := ⟨.hbm, 122, rfl⟩
abbrev main_v71 : Ref sig .tc := ⟨.hbm, 123, rfl⟩
abbrev main_c : Ref sig .tc := ⟨.hbm, 124, rfl⟩
abbrev main_v72 : Ref sig .tc := ⟨.hbm, 125, rfl⟩
abbrev main_v73 : Ref sig .tc := ⟨.hbm, 126, rfl⟩
abbrev main_c_19 : Ref sig .tc := ⟨.hbm, 127, rfl⟩
abbrev main_call8_v0 : Ref sig .tc := ⟨.hbm, 128, rfl⟩
abbrev main_call8_v1 : Ref sig .tc := ⟨.hbm, 129, rfl⟩
abbrev main_v74 : Ref sig .tc := ⟨.hbm, 130, rfl⟩
abbrev main_call9_v0 : Ref sig .tc := ⟨.hbm, 131, rfl⟩
abbrev main_call9_cst : Ref sig .tc := ⟨.hbm, 132, rfl⟩
abbrev main_call9_v1 : Ref sig .tc := ⟨.hbm, 133, rfl⟩
abbrev main_call9_v2 : Ref sig .tc := ⟨.hbm, 134, rfl⟩
abbrev main_v75 : Ref sig .tc := ⟨.hbm, 135, rfl⟩
abbrev main_cst_20 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_v81 : Ref sig .tc := ⟨.hbm, 142, rfl⟩
abbrev main_cst_21 : Ref sig .tc := ⟨.hbm, 143, rfl⟩
abbrev main_v82 : Ref sig .tc := ⟨.hbm, 144, rfl⟩
abbrev main_v83 : Ref sig .tc := ⟨.hbm, 145, rfl⟩
abbrev main_call10_cst : Ref sig .tc := ⟨.hbm, 146, rfl⟩
abbrev main_call10_v0 : Ref sig .tc := ⟨.hbm, 147, rfl⟩
abbrev main_call10_cst_0 : Ref sig .tc := ⟨.hbm, 148, rfl⟩
abbrev main_call10_v1 : Ref sig .tc := ⟨.hbm, 149, rfl⟩
abbrev main_call10_v2 : Ref sig .tc := ⟨.hbm, 150, rfl⟩
abbrev main_call10_v3 : Ref sig .tc := ⟨.hbm, 151, rfl⟩
abbrev main_call10_v4 : Ref sig .tc := ⟨.hbm, 152, rfl⟩
abbrev main_call10_v5 : Ref sig .tc := ⟨.hbm, 153, rfl⟩
abbrev main_call10_v6 : Ref sig .tc := ⟨.hbm, 154, rfl⟩
abbrev main_call10_cst_1 : Ref sig .tc := ⟨.hbm, 155, rfl⟩
abbrev main_call10_v7 : Ref sig .tc := ⟨.hbm, 156, rfl⟩
abbrev main_call10_v8 : Ref sig .tc := ⟨.hbm, 157, rfl⟩
abbrev main_call10_v9 : Ref sig .tc := ⟨.hbm, 158, rfl⟩
abbrev main_call10_v10 : Ref sig .tc := ⟨.hbm, 159, rfl⟩
abbrev main_v84 : Ref sig .tc := ⟨.hbm, 160, rfl⟩
abbrev main_v85 : Ref sig .tc := ⟨.hbm, 161, rfl⟩
abbrev main_call11_c : Ref sig .tc := ⟨.hbm, 162, rfl⟩
abbrev main_call11_v0 : Ref sig .tc := ⟨.hbm, 163, rfl⟩
abbrev main_call11_v1 : Ref sig .tc := ⟨.hbm, 164, rfl⟩
abbrev main_call11_c_0 : Ref sig .tc := ⟨.hbm, 165, rfl⟩
abbrev main_call11_v2 : Ref sig .tc := ⟨.hbm, 166, rfl⟩
abbrev main_call11_v3 : Ref sig .tc := ⟨.hbm, 167, rfl⟩
abbrev main_call11_v4 : Ref sig .tc := ⟨.hbm, 168, rfl⟩
abbrev main_call11_v5 : Ref sig .tc := ⟨.hbm, 169, rfl⟩
abbrev main_call11_c_1 : Ref sig .tc := ⟨.hbm, 170, rfl⟩
abbrev main_call11_c_2 : Ref sig .tc := ⟨.hbm, 171, rfl⟩
abbrev main_call11_v6 : Ref sig .tc := ⟨.hbm, 172, rfl⟩
abbrev main_call11_v7 : Ref sig .tc := ⟨.hbm, 173, rfl⟩
abbrev main_call11_v8 : Ref sig .tc := ⟨.hbm, 174, rfl⟩
abbrev main_call11_v9 : Ref sig .tc := ⟨.hbm, 175, rfl⟩
abbrev main_call11_v10 : Ref sig .tc := ⟨.hbm, 176, rfl⟩
abbrev main_call11_v11 : Ref sig .tc := ⟨.hbm, 177, rfl⟩
abbrev main_call11_c_3 : Ref sig .tc := ⟨.hbm, 178, rfl⟩
abbrev main_call11_v12 : Ref sig .tc := ⟨.hbm, 179, rfl⟩
abbrev main_call11_v13 : Ref sig .tc := ⟨.hbm, 180, rfl⟩
abbrev main_call11_cst : Ref sig .tc := ⟨.hbm, 181, rfl⟩
abbrev main_call11_v14 : Ref sig .tc := ⟨.hbm, 182, rfl⟩
abbrev main_v86 : Ref sig .tc := ⟨.hbm, 183, rfl⟩
abbrev main_v87 : Ref sig .tc := ⟨.hbm, 184, rfl⟩
abbrev main_v88 : Ref sig .tc := ⟨.hbm, 185, rfl⟩
abbrev main_v89 : Ref sig .tc := ⟨.hbm, 186, rfl⟩
abbrev main_cst_22 : Ref sig .tc := ⟨.hbm, 187, rfl⟩
abbrev main_v90 : Ref sig .tc := ⟨.hbm, 188, rfl⟩
abbrev main_cst_23 : Ref sig .tc := ⟨.hbm, 189, rfl⟩
abbrev main_v91 : Ref sig .tc := ⟨.hbm, 190, rfl⟩
abbrev main_cst_24 : Ref sig .tc := ⟨.hbm, 191, rfl⟩
abbrev main_call12_v0 : Ref sig .tc := ⟨.hbm, 192, rfl⟩
abbrev main_call12_v1 : Ref sig .tc := ⟨.hbm, 193, rfl⟩
abbrev main_v92 : Ref sig .tc := ⟨.hbm, 194, rfl⟩
abbrev main_cst_25 : Ref sig .tc := ⟨.hbm, 195, rfl⟩
abbrev main_v93 : Ref sig .tc := ⟨.hbm, 196, rfl⟩
abbrev main_v94 : Ref sig .tc := ⟨.hbm, 197, rfl⟩
abbrev main_c_26 : Ref sig .tc := ⟨.hbm, 198, rfl⟩
abbrev main_v95 : Ref sig .tc := ⟨.hbm, 199, rfl⟩
abbrev main_v96 : Ref sig .tc := ⟨.hbm, 200, rfl⟩
abbrev main_c_27 : Ref sig .tc := ⟨.hbm, 201, rfl⟩
abbrev main_call13_v0 : Ref sig .tc := ⟨.hbm, 202, rfl⟩
abbrev main_call13_v1 : Ref sig .tc := ⟨.hbm, 203, rfl⟩
abbrev main_v97 : Ref sig .tc := ⟨.hbm, 204, rfl⟩
abbrev main_call14_v0 : Ref sig .tc := ⟨.hbm, 205, rfl⟩
abbrev main_call14_cst : Ref sig .tc := ⟨.hbm, 206, rfl⟩
abbrev main_call14_v1 : Ref sig .tc := ⟨.hbm, 207, rfl⟩
abbrev main_call14_v2 : Ref sig .tc := ⟨.hbm, 208, rfl⟩
abbrev main_v98 : Ref sig .tc := ⟨.hbm, 209, rfl⟩
abbrev main_cst_28 : Ref sig .tc := ⟨.hbm, 210, rfl⟩
abbrev main_v99 : Ref sig .tc := ⟨.hbm, 211, rfl⟩
abbrev main_v100 : Ref sig .tc := ⟨.hbm, 212, rfl⟩
abbrev main_v101 : Ref sig .tc := ⟨.hbm, 213, rfl⟩
abbrev main_v102 : Ref sig .tc := ⟨.hbm, 214, rfl⟩
abbrev main_v103 : Ref sig .tc := ⟨.hbm, 215, rfl⟩
abbrev main_v104 : Ref sig .tc := ⟨.hbm, 216, rfl⟩
abbrev main_cst_29 : Ref sig .tc := ⟨.hbm, 217, rfl⟩
abbrev main_v105 : Ref sig .tc := ⟨.hbm, 218, rfl⟩
abbrev main_v106 : Ref sig .tc := ⟨.hbm, 219, rfl⟩
abbrev main_call15_cst : Ref sig .tc := ⟨.hbm, 220, rfl⟩
abbrev main_call15_v0 : Ref sig .tc := ⟨.hbm, 221, rfl⟩
abbrev main_call15_cst_0 : Ref sig .tc := ⟨.hbm, 222, rfl⟩
abbrev main_call15_v1 : Ref sig .tc := ⟨.hbm, 223, rfl⟩
abbrev main_call15_v2 : Ref sig .tc := ⟨.hbm, 224, rfl⟩
abbrev main_call15_v3 : Ref sig .tc := ⟨.hbm, 225, rfl⟩
abbrev main_call15_v4 : Ref sig .tc := ⟨.hbm, 226, rfl⟩
abbrev main_call15_v5 : Ref sig .tc := ⟨.hbm, 227, rfl⟩
abbrev main_call15_v6 : Ref sig .tc := ⟨.hbm, 228, rfl⟩
abbrev main_call15_cst_1 : Ref sig .tc := ⟨.hbm, 229, rfl⟩
abbrev main_call15_v7 : Ref sig .tc := ⟨.hbm, 230, rfl⟩
abbrev main_call15_v8 : Ref sig .tc := ⟨.hbm, 231, rfl⟩
abbrev main_call15_v9 : Ref sig .tc := ⟨.hbm, 232, rfl⟩
abbrev main_call15_v10 : Ref sig .tc := ⟨.hbm, 233, rfl⟩
abbrev main_v107 : Ref sig .tc := ⟨.hbm, 234, rfl⟩
abbrev main_v108 : Ref sig .tc := ⟨.hbm, 235, rfl⟩
abbrev main_call16_c : Ref sig .tc := ⟨.hbm, 236, rfl⟩
abbrev main_call16_v0 : Ref sig .tc := ⟨.hbm, 237, rfl⟩
abbrev main_call16_v1 : Ref sig .tc := ⟨.hbm, 238, rfl⟩
abbrev main_call16_c_0 : Ref sig .tc := ⟨.hbm, 239, rfl⟩
abbrev main_call16_v2 : Ref sig .tc := ⟨.hbm, 240, rfl⟩
abbrev main_call16_v3 : Ref sig .tc := ⟨.hbm, 241, rfl⟩
abbrev main_call16_v4 : Ref sig .tc := ⟨.hbm, 242, rfl⟩
abbrev main_call16_v5 : Ref sig .tc := ⟨.hbm, 243, rfl⟩
abbrev main_call16_c_1 : Ref sig .tc := ⟨.hbm, 244, rfl⟩
abbrev main_call16_c_2 : Ref sig .tc := ⟨.hbm, 245, rfl⟩
abbrev main_call16_v6 : Ref sig .tc := ⟨.hbm, 246, rfl⟩
abbrev main_call16_v7 : Ref sig .tc := ⟨.hbm, 247, rfl⟩
abbrev main_call16_v8 : Ref sig .tc := ⟨.hbm, 248, rfl⟩
abbrev main_call16_v9 : Ref sig .tc := ⟨.hbm, 249, rfl⟩
abbrev main_call16_v10 : Ref sig .tc := ⟨.hbm, 250, rfl⟩
abbrev main_call16_v11 : Ref sig .tc := ⟨.hbm, 251, rfl⟩
abbrev main_call16_c_3 : Ref sig .tc := ⟨.hbm, 252, rfl⟩
abbrev main_call16_v12 : Ref sig .tc := ⟨.hbm, 253, rfl⟩
abbrev main_call16_v13 : Ref sig .tc := ⟨.hbm, 254, rfl⟩
abbrev main_call16_cst : Ref sig .tc := ⟨.hbm, 255, rfl⟩
abbrev main_call16_v14 : Ref sig .tc := ⟨.hbm, 256, rfl⟩
abbrev main_v109 : Ref sig .tc := ⟨.hbm, 257, rfl⟩
abbrev main_v110 : Ref sig .tc := ⟨.hbm, 258, rfl⟩
abbrev main_v111 : Ref sig .tc := ⟨.hbm, 259, rfl⟩
abbrev main_v112 : Ref sig .tc := ⟨.hbm, 260, rfl⟩
abbrev main_cst_30 : Ref sig .tc := ⟨.hbm, 261, rfl⟩
abbrev main_v113 : Ref sig .tc := ⟨.hbm, 262, rfl⟩
abbrev main_cst_31 : Ref sig .tc := ⟨.hbm, 263, rfl⟩
abbrev main_v114 : Ref sig .tc := ⟨.hbm, 264, rfl⟩
abbrev main_cst_32 : Ref sig .tc := ⟨.hbm, 265, rfl⟩
abbrev main_call17_v0 : Ref sig .tc := ⟨.hbm, 266, rfl⟩
abbrev main_call17_v1 : Ref sig .tc := ⟨.hbm, 267, rfl⟩
abbrev main_v115 : Ref sig .tc := ⟨.hbm, 268, rfl⟩
abbrev main_cst_33 : Ref sig .tc := ⟨.hbm, 269, rfl⟩
abbrev main_v116 : Ref sig .tc := ⟨.hbm, 270, rfl⟩
abbrev main_v117 : Ref sig .tc := ⟨.hbm, 271, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x64_0_1 : S65536x1.BroadcastsInDim S65536x64 (![0, 1] : Fin 2 → Fin S65536x64.rank)
  bcast_S_S50x64 : S_.BroadcastsInDim S50x64 (![] : Fin 0 → Fin S50x64.rank)
  bcast_S_S65536 : S_.BroadcastsInDim S65536 (![] : Fin 0 → Fin S65536.rank)
  bcast_S_S50 : S_.BroadcastsInDim S50 (![] : Fin 0 → Fin S50.rank)
  bcast_S50_S50x1_0 : S50.BroadcastsInDim S50x1 (![0] : Fin 1 → Fin S50x1.rank)
  bcast_S50x1_S50x64_0_1 : S50x1.BroadcastsInDim S50x64 (![0, 1] : Fin 2 → Fin S50x64.rank)
  reducesTo_S50x64_S50_d1 : S50x64.ReducesTo [1] S50
  bcast_S_S50x1 : S_.BroadcastsInDim S50x1 (![] : Fin 0 → Fin S50x1.rank)
  reducesTo_S524288x64_S524288_d1 : S524288x64.ReducesTo [1] S524288
  bcast_S524288_S524288x1_0 : S524288.BroadcastsInDim S524288x1 (![0] : Fin 1 → Fin S524288x1.rank)
  bcast_S_S524288x1 : S_.BroadcastsInDim S524288x1 (![] : Fin 0 → Fin S524288x1.rank)
  bcast_S524288x1_S524288x64_0_1 : S524288x1.BroadcastsInDim S524288x64 (![0, 1] : Fin 2 → Fin S524288x64.rank)
  bcast_S_S200x64 : S_.BroadcastsInDim S200x64 (![] : Fin 0 → Fin S200x64.rank)
  bcast_S_S524288 : S_.BroadcastsInDim S524288 (![] : Fin 0 → Fin S524288.rank)
  bcast_S_S200 : S_.BroadcastsInDim S200 (![] : Fin 0 → Fin S200.rank)
  bcast_S200_S200x1_0 : S200.BroadcastsInDim S200x1 (![0] : Fin 1 → Fin S200x1.rank)
  bcast_S200x1_S200x64_0_1 : S200x1.BroadcastsInDim S200x64 (![0, 1] : Fin 2 → Fin S200x64.rank)
  reducesTo_S200x64_S200_d1 : S200x64.ReducesTo [1] S200
  bcast_S_S200x1 : S_.BroadcastsInDim S200x1 (![] : Fin 0 → Fin S200x1.rank)
  transposes_S50x64_S64x50_1_0 : S50x64.Transposes [1, 0] S64x50
  bcast_S_S65536x50 : S_.BroadcastsInDim S65536x50 (![] : Fin 0 → Fin S65536x50.rank)
  reducesTo_S65536x50_S65536_d1 : S65536x50.ReducesTo [1] S65536
  bcast_S65536x1_S65536x50_0_1 : S65536x1.BroadcastsInDim S65536x50 (![0, 1] : Fin 2 → Fin S65536x50.rank)
  shapeCasts_S65536x1_S65536x1x1 : S65536x1.ShapeCasts S65536x1x1
  bcast_S_S65536x1x1 : S_.BroadcastsInDim S65536x1x1 (![] : Fin 0 → Fin S65536x1x1.rank)
  bcast_S1_S1x1x1_2 : S1.BroadcastsInDim S1x1x1 (![2] : Fin 1 → Fin S1x1x1.rank)
  bcast_S1x1x1_S65536x1x1_0_1_2 : S1x1x1.BroadcastsInDim S65536x1x1 (![0, 1, 2] : Fin 3 → Fin S65536x1x1.rank)
  reducesTo_S65536x1x1_S65536x1_d2 : S65536x1x1.ReducesTo [2] S65536x1
  shapeCasts_S65536x1_S65536 : S65536x1.ShapeCasts S65536
  reducesTo_S65536_S_d0 : S65536.ReducesTo [0] S_
  transposes_S200x64_S64x200_1_0 : S200x64.Transposes [1, 0] S64x200
  bcast_S_S524288x200 : S_.BroadcastsInDim S524288x200 (![] : Fin 0 → Fin S524288x200.rank)
  reducesTo_S524288x200_S524288_d1 : S524288x200.ReducesTo [1] S524288
  bcast_S524288x1_S524288x200_0_1 : S524288x1.BroadcastsInDim S524288x200 (![0, 1] : Fin 2 → Fin S524288x200.rank)
  shapeCasts_S524288x1_S524288x1x1 : S524288x1.ShapeCasts S524288x1x1
  bcast_S_S524288x1x1 : S_.BroadcastsInDim S524288x1x1 (![] : Fin 0 → Fin S524288x1x1.rank)
  bcast_S1x1x1_S524288x1x1_0_1_2 : S1x1x1.BroadcastsInDim S524288x1x1 (![0, 1, 2] : Fin 3 → Fin S524288x1x1.rank)
  reducesTo_S524288x1x1_S524288x1_d2 : S524288x1x1.ReducesTo [2] S524288x1
  shapeCasts_S524288x1_S524288 : S524288x1.ShapeCasts S524288
  reducesTo_S524288_S_d0 : S524288.ReducesTo [0] S_
  scatter_S50x64_S65536x1_S65536x64_1_0_0_1_wf : ScatterDims.WF S50x64 S65536x1 S65536x64 [1] [0] [0] 1
  scatter_S50_S65536x1_S65536_n_0_0_1_wf : ScatterDims.WF S50 S65536x1 S65536 [] [0] [0] 1
  scatter_S200x64_S524288x1_S524288x64_1_0_0_1_wf : ScatterDims.WF S200x64 S524288x1 S524288x64 [1] [0] [0] 1
  scatter_S200_S524288x1_S524288_n_0_0_1_wf : ScatterDims.WF S200 S524288x1 S524288 [] [0] [0] 1
  dot_S65536x64_S64x50_S65536x50_1_0_0_1_n_n_wf : DotDims.WF S65536x64 S64x50 S65536x50 [1] [0] [0] [1] [] []
  gather_S65536x50_S65536x1x1_S65536x1_n_1_0_0_1_2_11_wf : GatherDims.WF S65536x50 S65536x1x1 S65536x1 [] [1] [0] [1] [0] 2 ![1, 1]
  dot_S524288x64_S64x200_S524288x200_1_0_0_1_n_n_wf : DotDims.WF S524288x64 S64x200 S524288x200 [1] [0] [0] [1] [] []
  gather_S524288x200_S524288x1x1_S524288x1_n_1_0_0_1_2_11_wf : GatherDims.WF S524288x200 S524288x1x1 S524288x1 [] [1] [0] [1] [0] 2 ![1, 1]

variable [Facts₀]

def scatter_S50x64_S65536x1_S65536x64_1_0_0_1 : ScatterDims S50x64 S65536x1 S65536x64 where
  updateWindowDims := [1]
  insertedWindowDims := [0]
  scatterDimsToOperandDims := [0]
  indexVectorDim := 1
  wf := scatter_S50x64_S65536x1_S65536x64_1_0_0_1_wf
def scatter_S50_S65536x1_S65536_n_0_0_1 : ScatterDims S50 S65536x1 S65536 where
  updateWindowDims := []
  insertedWindowDims := [0]
  scatterDimsToOperandDims := [0]
  indexVectorDim := 1
  wf := scatter_S50_S65536x1_S65536_n_0_0_1_wf
def scatter_S200x64_S524288x1_S524288x64_1_0_0_1 : ScatterDims S200x64 S524288x1 S524288x64 where
  updateWindowDims := [1]
  insertedWindowDims := [0]
  scatterDimsToOperandDims := [0]
  indexVectorDim := 1
  wf := scatter_S200x64_S524288x1_S524288x64_1_0_0_1_wf
def scatter_S200_S524288x1_S524288_n_0_0_1 : ScatterDims S200 S524288x1 S524288 where
  updateWindowDims := []
  insertedWindowDims := [0]
  scatterDimsToOperandDims := [0]
  indexVectorDim := 1
  wf := scatter_S200_S524288x1_S524288_n_0_0_1_wf
def dot_S65536x64_S64x50_S65536x50_1_0_0_1_n_n : DotDims S65536x64 S64x50 S65536x50 where
  lhsContracting := [1]
  rhsContracting := [0]
  lhsNonContracting := [0]
  rhsNonContracting := [1]
  lhsBatch := []
  rhsBatch := []
  wf := dot_S65536x64_S64x50_S65536x50_1_0_0_1_n_n_wf
def gather_S65536x50_S65536x1x1_S65536x1_n_1_0_0_1_2_11 : GatherDims S65536x50 S65536x1x1 S65536x1 where
  offsetDims := []
  collapsedSliceDims := [1]
  operandBatchingDims := [0]
  startIndicesBatchingDims := [0]
  startIndexMap := [1]
  indexVectorDim := 2
  sliceSizes := ![1, 1]
  wf := gather_S65536x50_S65536x1x1_S65536x1_n_1_0_0_1_2_11_wf
def dot_S524288x64_S64x200_S524288x200_1_0_0_1_n_n : DotDims S524288x64 S64x200 S524288x200 where
  lhsContracting := [1]
  rhsContracting := [0]
  lhsNonContracting := [0]
  rhsNonContracting := [1]
  lhsBatch := []
  rhsBatch := []
  wf := dot_S524288x64_S64x200_S524288x200_1_0_0_1_n_n_wf
def gather_S524288x200_S524288x1x1_S524288x1_n_1_0_0_1_2_11 : GatherDims S524288x200 S524288x1x1 S524288x1 where
  offsetDims := []
  collapsedSliceDims := [1]
  operandBatchingDims := [0]
  startIndicesBatchingDims := [0]
  startIndexMap := [1]
  indexVectorDim := 2
  sliceSizes := ![1, 1]
  wf := gather_S524288x200_S524288x1x1_S524288x1_n_1_0_0_1_2_11_wf

class Facts : Prop extends Facts₀ where

variable [Facts]
-- ==== Proof.PreRead.lean ====
import proofs.«419305_j85452669321568_1_alg».proof.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreRead

open Idealize.ShloMosaic Cert.Pre_finite_inputs

instance : Subsingleton S_.Idx := ⟨fun a b => funext fun d => d.elim0⟩

theorem inf_word : Ideal.ofBits .f32 0x7F800000#32 = (⊤ : EReal) := by
  simp [Ideal.ofBits, Ideal.ieee]

-- max x (-x) < ⊤ rules out both infinities.
theorem real_of_abs_lt (x : EReal) (h : Ideal.cmp .olt (max x (-x)) (Ideal.ofBits .f32 0x7F800000#32) = 1#1) :
    x ≠ ⊤ ∧ x ≠ ⊥ := by
  rw [inf_word] at h
  have h' : max x (-x) < ⊤ := by
    unfold Ideal.cmp at h
    simpa [StableHlo.Predicate.ofBool_eq_one_iff] using h
  constructor
  · rintro rfl
    simp at h'
  · rintro rfl
    simp at h'

theorem range_of_tests (a K : BitVec 32)
    (h : IntOp.andi (IntOp.cmpi .sge a 0#32) (IntOp.cmpi .slt a K) = 1#1) : 0 ≤ a.toInt ∧ a.toInt < K.toInt := by
  obtain ⟨h1, h2⟩ := IntOp.andi_eq_one.1 h
  have h1' := IntOp.cmpi_sge.1 h1
  have h2' := IntOp.cmpi_slt.1 h2
  have hz : (0#32 : BitVec 32).toInt = 0 := by decide
  rw [hz] at h1'
  exact ⟨h1', h2'⟩

section All
variable {s : Shape} {axes : List (Fin s.rank)}

theorem all_real (x : FVec Ideal s .f32) (hb : S_.BroadcastsInDim s (![] : Fin 0 → Fin s.rank)) (hr : s.ReducesTo axes S_)
    (hu : 0 < S_.numel)
    (e : Host.reduce IntOp.andi (cmpf .olt (Host.absf x) (broadcastInDim s ![] hb (constant S_ .f32 0x7F800000#32)))
      (constantI S_ 1 1#1) hr hu ValueIdx.ix0 = 1#1) (i : s.Idx) : x i ≠ ⊤ ∧ x i ≠ ⊥ :=
  real_of_abs_lt (x i) (Host.reduce_andi_all _ _ hr hu _ e i)

theorem all_range (K : BitVec 32) (x : IVec s 32) (hb : S_.BroadcastsInDim s (![] : Fin 0 → Fin s.rank))
    (hr : s.ReducesTo axes S_) (hu : 0 < S_.numel)
    (e : Host.reduce IntOp.andi (andi (cmpi .sge x (broadcastInDim s ![] hb (constantI S_ 32 0#32)))
        (cmpi .slt x (broadcastInDim s ![] hb (constantI S_ 32 K))))
      (constantI S_ 1 1#1) hr hu ValueIdx.ix0 = 1#1) (i : s.Idx) : 0 ≤ (x i).toInt ∧ (x i).toInt < K.toInt :=
  range_of_tests (x i) K (Host.reduce_andi_all _ _ hr hu _ e i)

end All

-- The precondition is six all-tests and-ed together: every float entry is real, every label lies in its class range.
theorem decode [Cert.Pre_finite_inputs.Facts] (x0 : FVec Ideal S65536x64 .f32) (x1 : FVec Ideal S524288x64 .f32)
    (x2 : IVec S65536 32) (x3 : IVec S524288 32) (x4 : FVec Ideal S50x64 .f32) (x5 : FVec Ideal S200x64 .f32)
    (h : Cert.Pre_finite_inputs.fn (F := Ideal) x0 x1 x2 x3 x4 x5 = fun _ => 1#1) :
    (∀ i, x0 i ≠ ⊤ ∧ x0 i ≠ ⊥) ∧ (∀ i, x1 i ≠ ⊤ ∧ x1 i ≠ ⊥) ∧ (∀ i, x4 i ≠ ⊤ ∧ x4 i ≠ ⊥) ∧ (∀ i, x5 i ≠ ⊤ ∧ x5 i ≠ ⊥)
      ∧ (∀ i, 0 ≤ (x2 i).toInt ∧ (x2 i).toInt < 50) ∧ (∀ i, 0 ≤ (x3 i).toInt ∧ (x3 i).toInt < 200) := by
  have h0 := congrFun h ValueIdx.ix0
  dsimp only [Cert.Pre_finite_inputs.fn, Cert.Pre_finite_inputs.fn_part1] at h0
  obtain ⟨h0, e3⟩ := IntOp.andi_eq_one.1 h0
  obtain ⟨h0, e2⟩ := IntOp.andi_eq_one.1 h0
  obtain ⟨h0, e5⟩ := IntOp.andi_eq_one.1 h0
  obtain ⟨h0, e4⟩ := IntOp.andi_eq_one.1 h0
  obtain ⟨e0, e1⟩ := IntOp.andi_eq_one.1 h0
  have k50 : (50#32 : BitVec 32).toInt = 50 := by decide
  have k200 : (200#32 : BitVec 32).toInt = 200 := by decide
  refine ⟨all_real x0 _ _ _ e0, all_real x1 _ _ _ e1, all_real x4 _ _ _ e4, all_real x5 _ _ _ e5, fun i => ?_, fun i => ?_⟩
  · have := all_range 50#32 x2 _ _ _ e2 i
    rw [k50] at this
    exact this
  · have := all_range 200#32 x3 _ _ _ e3 i
    rw [k200] at this
    exact this

end Cert.PreRead

end
-- ==== Proof.LibProtoUpd.lean ====
import Idealize.ShloMosaic.PureOps.Contract

noncomputable section

namespace Idealize.ShloMosaic

variable {F : FTy → Type} [FloatOps F] {C D : Nat}

/-- Row by row, `unit (½ · P + ½ · unit (S / max cnt 1))` where `cnt > 0` and `P` elsewhere, with `unit A = A / max (√(∑ A²)) ε`. -/
def protoUpd (S : FVec F ⟨2, ![C, D]⟩ .f32) (cnt : FVec F ⟨1, ![C]⟩ .f32) (P : FVec F ⟨2, ![C, D]⟩ .f32)
    (bc : (⟨0, ![]⟩ : Shape).BroadcastsInDim ⟨1, ![C]⟩ ![] := by decide)
    (b0 : (⟨1, ![C]⟩ : Shape).BroadcastsInDim ⟨2, ![C, 1]⟩ ![0] := by decide)
    (b1 : (⟨2, ![C, 1]⟩ : Shape).BroadcastsInDim ⟨2, ![C, D]⟩ ![0, 1] := by decide)
    (r : (⟨2, ![C, D]⟩ : Shape).ReducesTo [1] ⟨1, ![C]⟩ := by decide)
    (bc1 : (⟨0, ![]⟩ : Shape).BroadcastsInDim ⟨2, ![C, 1]⟩ ![] := by decide)
    (bcd : (⟨0, ![]⟩ : Shape).BroadcastsInDim ⟨2, ![C, D]⟩ ![] := by decide) : FVec F ⟨2, ![C, D]⟩ .f32 :=
  let word (b : BitVec 32) : FVec F ⟨0, ![]⟩ .f32 := constant ⟨0, ![]⟩ .f32 b
  let rows (x : FVec F ⟨1, ![C]⟩ .f32) : FVec F ⟨2, ![C, 1]⟩ .f32 := broadcastInDim ⟨2, ![C, 1]⟩ ![0] b0 x
  let unit (A : FVec F ⟨2, ![C, D]⟩ .f32) : FVec F ⟨2, ![C, D]⟩ .f32 :=
    Host.divf A (broadcastInDim ⟨2, ![C, D]⟩ ![0, 1] b1
      (maximumf (Host.sqrt (rows (Host.reduceAdd (mulf A A) (word 0x00000000#32) r (by decide))))
        (broadcastInDim ⟨2, ![C, 1]⟩ ![] bc1 (word 0x2B8CBCCC#32))))
  let half : FVec F ⟨2, ![C, D]⟩ .f32 := broadcastInDim ⟨2, ![C, D]⟩ ![] bcd (word 0x3F000000#32)
  let mean := Host.divf S (broadcastInDim ⟨2, ![C, D]⟩ ![0, 1] b1
    (rows (maximumf cnt (broadcastInDim ⟨1, ![C]⟩ ![] bc (word 0x3F800000#32)))))
  select
    (broadcastInDim ⟨2, ![C, D]⟩ ![0, 1] b1
      (broadcastInDim ⟨2, ![C, 1]⟩ ![0] b0 (cmpf (F := F) .ogt cnt (broadcastInDim ⟨1, ![C]⟩ ![] bc (word 0x00000000#32)))))
    (unit (addf (mulf half P) (mulf half (unit mean)))) P

end Idealize.ShloMosaic

end
-- ==== Proof.KV.Upd.lean ====
import proofs.«419305_j85452669321568_1_alg».proof.Proof.Gen.KernelIdeal
import proofs.«419305_j85452669321568_1_alg».proof.Proof.LibProtoUpd

noncomputable section

namespace Cert.KernelIdeal.KV

open Idealize.ShloMosaic Cert.KernelIdeal Cert.KernelIdeal.Gen

variable {F : FTy → Type} [FloatOps F]

def updFti (S : FVec F S50x64 .f32) (cnt : FVec F S50 .f32) (P : FVec F S50x64 .f32) : FVec F S50x64 .f32 :=
  protoUpd S cnt P

def updRcl (S : FVec F S200x64 .f32) (cnt : FVec F S200 .f32) (P : FVec F S200x64 .f32) : FVec F S200x64 .f32 :=
  protoUpd S cnt P

end Cert.KernelIdeal.KV

end
-- ==== Proof.KV.Glue.lean ====
import proofs.«419305_j85452669321568_1_alg».proof.Proof.Gen.KernelIdeal.Frame
import Idealize.ShloMosaic.Lib.StableHlo.Run
import Idealize.ShloMosaic.Lib.Pipeline.Value
import Idealize.ShloMosaic.Lib.Tactic
import Idealize.ShloMosaic.PureOps.Ideal
import Idealize.ShloMosaic.Lib.ValueIdx
import proofs.«419305_j85452669321568_1_alg».proof.Proof.KV.Upd

noncomputable section

namespace Cert.KernelIdeal.KV

open Idealize.ShloMosaic Idealize.ShloMosaic.TcCoe Cert.KernelIdeal Cert.KernelIdeal.Gen

variable (m : (ℓ : Loc nD τ sig) → Buf (Elt Ideal) ℓ) (ρ : Dev nD → PrngReg)

-- A buffer read after host operations is the value of the operation that wrote it, at the operands' contents before; one nobody wrote is unchanged.
local macro "walk" : tactic => `(tactic|
  (simp only [W1, W3, W5, W6, W7, W8, W9, W10, W11, W12, W13, W14, W15, W16, W17, W19, W21, hostOps0, hostOps1, hostOps2,
     hostOps2_1, hostOps2_2, hostOps2_3, hostOps2_4, hostOps2_5, hostOps2_6, hostOps2_7, hostOps2_8, hostOps2_9, hostOps2_10,
     hostOps2_11, hostOps2_12, hostOps3, hostOps4]
   after_results_simp
   try simp only [StableHlo.TRef.ofBuf, StableHlo.TRef.toBuf, cast_eq]))

theorem V1_feat (c : Dev nD) : V1 m ρ c main_arg0 = m ((c : Thread nD τ).loc main_arg0) := by
  show W1 m ρ c (Proc.devRef .tc main_arg0) = _
  walk

theorem V1_lab (c : Dev nD) : V1 m ρ c main_v0 = shapeCast S65536x1 (m ((c : Thread nD τ).loc main_arg2)) shapeCasts_S65536_S65536x1 := by
  show W1 m ρ c (Proc.devRef .tc main_v0) = _
  walk
  rfl

theorem V3_feat (c : Dev nD) : V3 m ρ c main_arg1 = m ((c : Thread nD τ).loc main_arg1) := by
  show W3 m ρ c (Proc.devRef .tc main_arg1) = _
  walk
  rw [W2_of_ne m ρ c main_arg1 (by decide)]
  walk

theorem V3_lab (c : Dev nD) : V3 m ρ c main_v1 = shapeCast S524288x1 (m ((c : Thread nD τ).loc main_arg3)) shapeCasts_S524288_S524288x1 := by
  show W3 m ρ c (Proc.devRef .tc main_v1) = _
  walk
  rw [W2_of_ne m ρ c main_v1 (by decide)]
  walk
  rfl

theorem V17_feat (c : Dev nD) : V17 m ρ c main_arg0 = m ((c : Thread nD τ).loc main_arg0) := by
  show W17 m ρ c (Proc.devRef .tc main_arg0) = _
  walk
  rw [W4_of_ne m ρ c main_arg0 (by decide)]
  walk
  exact ((W2_arr m ρ c 0).trans (((dat0 (V1 m ρ) c).arrAt_in 0 rfl _).trans (A_eq0 (V1 m ρ) c 0))).trans (V1_feat m ρ c)

theorem V17_lab (c : Dev nD) : V17 m ρ c main_v0 = shapeCast S65536x1 (m ((c : Thread nD τ).loc main_arg2)) shapeCasts_S65536_S65536x1 := by
  show W17 m ρ c (Proc.devRef .tc main_v0) = _
  walk
  rw [W4_of_ne m ρ c main_v0 (by decide)]
  walk
  exact ((W2_arr m ρ c 1).trans (((dat0 (V1 m ρ) c).arrAt_in 1 rfl _).trans (A_eq0 (V1 m ρ) c 1))).trans (V1_lab m ρ c)

theorem V19_feat (c : Dev nD) : V19 m ρ c main_arg1 = m ((c : Thread nD τ).loc main_arg1) := by
  show W19 m ρ c (Proc.devRef .tc main_arg1) = _
  walk
  rw [W18_of_ne m ρ c main_arg1 (by decide)]
  walk
  exact ((W4_arr m ρ c 0).trans (((dat1 (V3 m ρ) c).arrAt_in 0 rfl _).trans (A_eq1 (V3 m ρ) c 0))).trans (V3_feat m ρ c)

theorem V19_lab (c : Dev nD) : V19 m ρ c main_v1 = shapeCast S524288x1 (m ((c : Thread nD τ).loc main_arg3)) shapeCasts_S524288_S524288x1 := by
  show W19 m ρ c (Proc.devRef .tc main_v1) = _
  walk
  rw [W18_of_ne m ρ c main_v1 (by decide)]
  walk
  exact ((W4_arr m ρ c 1).trans (((dat1 (V3 m ρ) c).arrAt_in 1 rfl _).trans (A_eq1 (V3 m ρ) c 1))).trans (V3_lab m ρ c)

theorem W21_loss_rcl (c : Dev nD) : W21 m ρ c (Proc.devRef .tc main_v65) = Host.divf (F := Ideal) (Host.reduceAdd (F := Ideal) ((dat3 (F := Ideal) (V19 m ρ) c).arrAt 3 cfg3.N : Vec Ideal S2x1x1 .f32) (constant (F := Ideal) S_ .f32 0x00000000#32) reducesTo_S2x1x1_S_d0_1_2 h_S_) (constant (F := Ideal) S_ .f32 0x49000000#32) := by
  have e : W20 m ρ c (Proc.devRef .tc main_v63) = (dat3 (V19 m ρ) c).arrAt 3 cfg3.N := W20_arr m ρ c 3
  walk
  rw [e]

theorem W21_loss_fti (c : Dev nD) : W21 m ρ c (Proc.devRef .tc main_v61) = Host.divf (F := Ideal) (Host.reduceAdd (F := Ideal) ((dat2 (F := Ideal) (V17 m ρ) c).arrAt 3 cfg2.N : Vec Ideal S2x1x1 .f32) (constant (F := Ideal) S_ .f32 0x00000000#32) reducesTo_S2x1x1_S_d0_1_2 h_S_) (constant (F := Ideal) S_ .f32 0x47800000#32) := by
  have e : W18 m ρ c (Proc.devRef .tc main_v59) = (dat2 (V17 m ρ) c).arrAt 3 cfg2.N := W18_arr m ρ c 3
  walk
  rw [W20_of_ne m ρ c main_v61 (by decide)]
  walk
  rw [e]

abbrev sumsFti (c : Dev nD) : FVec Ideal S50x64 .f32 :=
  Host.reduceAdd (F := Ideal) ((dat0 (F := Ideal) (V1 m ρ) c).arrAt 2 cfg0.N : Vec Ideal S2x50x64 .f32) (constant (F := Ideal) S_ .f32 0x00000000#32) reducesTo_S2x50x64_S50x64_d0 h_S_
abbrev cntFti (c : Dev nD) : FVec Ideal S50 .f32 :=
  shapeCast S50 (Host.reduceAdd (F := Ideal) ((dat0 (F := Ideal) (V1 m ρ) c).arrAt 3 cfg0.N : Vec Ideal S2x1x50 .f32) (constant (F := Ideal) S_ .f32 0x00000000#32) reducesTo_S2x1x50_S1x50_d0 h_S_) shapeCasts_S1x50_S50

-- The thirteen stretches between regions 1 and 2, read at the transposed prototypes, compose to the update of the sums, counts and old prototypes.
theorem V17_proto (c : Dev nD) : V17 m ρ c main_v58 = transpose S64x50 [1, 0] (updFti (F := Ideal) (sumsFti m ρ c) (cntFti m ρ c) (m ((c : Thread nD τ).loc main_arg4))) transposes_S50x64_S64x50_1_0 := by
  have e3 : W2 m ρ c (Proc.devRef .tc main_v2_0) = (dat0 (V1 m ρ) c).arrAt 2 cfg0.N := W2_arr m ρ c 2
  have e5 : W2 m ρ c (Proc.devRef .tc main_v2_1) = (dat0 (V1 m ρ) c).arrAt 3 cfg0.N := W2_arr m ρ c 3
  show W17 m ρ c (Proc.devRef .tc main_v58) = _
  walk
  rw [W4_of_ne m ρ c main_v3 (by decide), W4_of_ne m ρ c main_v5 (by decide), W4_of_ne m ρ c main_arg4 (by decide)]
  walk
  rw [e3, e5, W2_of_ne m ρ c main_arg4 (by decide)]
  walk
  rfl

abbrev sumsRcl (c : Dev nD) : FVec Ideal S200x64 .f32 :=
  Host.reduceAdd (F := Ideal) ((dat1 (F := Ideal) (V3 m ρ) c).arrAt 2 cfg1.N : Vec Ideal S2x200x64 .f32) (constant (F := Ideal) S_ .f32 0x00000000#32) reducesTo_S2x200x64_S200x64_d0 h_S_
abbrev cntRcl (c : Dev nD) : FVec Ideal S200 .f32 :=
  shapeCast S200 (Host.reduceAdd (F := Ideal) ((dat1 (F := Ideal) (V3 m ρ) c).arrAt 3 cfg1.N : Vec Ideal S2x1x200 .f32) (constant (F := Ideal) S_ .f32 0x00000000#32) reducesTo_S2x1x200_S1x200_d0 h_S_) shapeCasts_S1x200_S200

theorem V19_proto (c : Dev nD) : V19 m ρ c main_v62 = transpose S64x200 [1, 0] (updRcl (F := Ideal) (sumsRcl m ρ c) (cntRcl m ρ c) (m ((c : Thread nD τ).loc main_arg5))) transposes_S200x64_S64x200_1_0 := by
  have e7 : W4 m ρ c (Proc.devRef .tc main_v6_0) = (dat1 (V3 m ρ) c).arrAt 2 cfg1.N := W4_arr m ρ c 2
  have e9 : W4 m ρ c (Proc.devRef .tc main_v6_1) = (dat1 (V3 m ρ) c).arrAt 3 cfg1.N := W4_arr m ρ c 3
  show W19 m ρ c (Proc.devRef .tc main_v62) = _
  walk
  rw [W18_of_ne m ρ c main_v57 (by decide)]
  walk
  rw [e7, e9, W4_of_ne m ρ c main_arg5 (by decide)]
  walk
  rw [W2_of_ne m ρ c main_arg5 (by decide)]
  walk
  rfl

end Cert.KernelIdeal.KV

end
-- ==== Proof.LibColumnCast.lean ====
import Idealize.ShloMosaic.Lib.Pipeline.Value
import Idealize.ShloMosaic.Lib.ValueIdx

namespace Idealize.ShloMosaic.ValueIdx

variable {α : Type}

/-- A vector stood up as a column reads the vector at the row: (i, u) and i have the same row-major position, u being 0. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

end Idealize.ShloMosaic.ValueIdx
-- ==== Proof.Math.Spec.lean ====
import Idealize.ShloMosaic.PureOps.Ideal
import Idealize.ShloMosaic.Lib.ValueIdx

noncomputable section

open scoped BigOperators

namespace Cert.Spec

open Idealize.ShloMosaic

variable {N D C : ℕ}

def eps : EReal := Ideal.ofBits .f32 0x2B8CBCCC#32

def temp : EReal := Ideal.ofBits .f32 0x3E99999A#32

def sqLen (x : Fin D → EReal) : EReal := ∑ e : Fin D, x e * x e

-- A row over its length, the length guarded from below by eps.
def unitRow (x : Fin D → EReal) (d : Fin D) : EReal := Ideal.div (x d) (max (Ideal.sqrt (sqLen x)) eps)

-- The unit rows that carry label c, added up; classCount counts them.
def classSum (L : Fin N → BitVec 32) (X : Fin N → Fin D → EReal) (c : Fin C) (d : Fin D) : EReal :=
  ∑ r : Fin N, if (L r).toInt = (c.val : Int) then unitRow (X r) d else 0

def classCount (L : Fin N → BitVec 32) (c : Fin C) : EReal :=
  ∑ r : Fin N, if (L r).toInt = (c.val : Int) then (1 : EReal) else 0

-- A row's logit against class c: its unit row's inner product with the class's prototype, over the temperature.
def logit (x : Fin D → EReal) (P : Fin C → Fin D → EReal) (c : Fin C) : EReal :=
  Ideal.div (∑ d : Fin D, unitRow x d * P c d) temp

def rowMax (z : Fin C → EReal) : EReal := Finset.univ.sup z

-- The log-sum-exp of a row of logits, taken around the row's maximum.
def lse (z : Fin C → EReal) : EReal := rowMax z + Ideal.log (∑ c : Fin C, Ideal.exp (z c - rowMax z))

-- A row's loss: log-sum-exp minus the logit at its own label, picked out by a 0/1 mask.
def rowLoss (z : Fin C → EReal) (l : BitVec 32) : EReal :=
  lse z - ∑ c : Fin C, (if l.toInt = (c.val : Int) then (1 : EReal) else 0) * z c

def lossSum (L : Fin N → BitVec 32) (X : Fin N → Fin D → EReal) (P : Fin C → Fin D → EReal) : EReal :=
  ∑ r : Fin N, rowLoss (logit (X r) P) (L r)

-- Of N = P·K·T rows, row (p·K + k)·T + t is position t of tile k of part p.
theorem tile_lt {N P K T : ℕ} (hN : N = P * K * T) (p : Fin P) (k : Fin K) (t : Fin T) :
    (p.val * K + k.val) * T + t.val < N := by
  subst hN
  have hp := p.isLt; have hk := k.isLt; have ht := t.isLt
  have h1 : p.val * K + k.val + 1 ≤ P * K := by
    have : (p.val + 1) * K ≤ P * K := Nat.mul_le_mul_right K hp
    have e : (p.val + 1) * K = p.val * K + K := by ring
    omega
  have h2 : (p.val * K + k.val + 1) * T ≤ P * K * T := Nat.mul_le_mul_right T h1
  have e2 : (p.val * K + k.val + 1) * T = (p.val * K + k.val) * T + T := by ring
  omega

def tileRow {N P K T : ℕ} (hN : N = P * K * T) (p : Fin P) (k : Fin K) (t : Fin T) : Fin N :=
  ⟨(p.val * K + k.val) * T + t.val, tile_lt hN p k t⟩

theorem tileRow_val {N P K T : ℕ} (hN : N = P * K * T) (p : Fin P) (k : Fin K) (t : Fin T) :
    (tileRow hN p k t).val = (p.val * K + k.val) * T + t.val := rfl

end Cert.Spec

end
-- ==== Proof.KV.LossTileOps.lean ====
import Idealize.ShloMosaic.Lib.ValueLayout
import Idealize.ShloMosaic.PureOps.Ideal.Laws
import proofs.«419305_j85452669321568_1_alg».proof.Proof.LibColumnCast
import proofs.«419305_j85452669321568_1_alg».proof.Proof.Math.Spec

noncomputable section

open scoped BigOperators
open Idealize.ShloMosaic Idealize.ShloMosaic.ValueIdx

namespace Cert.KernelIdeal.KV

/-- A column repeated along the second axis reads the column at the row. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Summing an [a, b] array along its second axis leaves, at row i, the sum of the row. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = FKind.neutral .add .f32 hφ) (i : Fin a) :
    multiReduction (F := Ideal) .add [1] ⟨1, ![a]⟩ src 0x00000000#32 h hφ hacc (ix1 i) = ∑ k : Fin b, src (ix2 i k) :=
  (Ideal.multiReduction_add_single src _ h hφ hacc (ix1 i)).trans
    (Finset.sum_congr rfl fun k _ => congrArg src (by funext ax; fin_cases ax <;> rfl))

/-- Summing it along its first axis leaves, at column j, the sum of the column. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = FKind.neutral .add .f32 hφ) (j : Fin b) :
    multiReduction (F := Ideal) .add [0] ⟨1, ![b]⟩ src 0x00000000#32 h hφ hacc (ix1 j) = ∑ t : Fin a, src (ix2 t j) :=
  (Ideal.multiReduction_add_single src _ h hφ hacc (ix1 j)).trans
    (Finset.sum_congr rfl fun k _ => congrArg src (by funext ax; fin_cases ax <;> rfl))

/-- The word of -∞ is the bottom element. -/
theorem ofBits_negInf_f32 : FloatOps.ofBits (F := Ideal) .f32 0xFF800000#32 = (⊥ : EReal) := by
  simp [Ideal.ofBits, Ideal.ieee]

/-- The maximum along the second axis, started from -∞, is the row's supremum. -/
theorem rowMax_apply {a b : ℕ} (src : FVec Ideal ⟨2, ![a, b]⟩ .f32) (h : (⟨2, ![a, b]⟩ : Shape).Reduces [1] ⟨1, ![a]⟩)
    (hφ : FKind.Formats .f32) (hacc : (0xFF800000#32 : BitVec 32) = FKind.neutral .maximumf .f32 hφ) (i : Fin a) :
    multiReduction (F := Ideal) .maximumf [1] ⟨1, ![a]⟩ src 0xFF800000#32 h hφ hacc (ix1 i)
      = Finset.univ.sup fun k : Fin b => src (ix2 i k) := by
  rw [Ideal.multiReduction_maximumf_single, ofBits_negInf_f32,
    show src ∘ h.lift (ix1 i) = fun k : Fin b => src (ix2 i k) from
      funext fun k => congrArg src (by funext ax; fin_cases ax <;> rfl)]
  rfl

/-- A word is the word of a number below 2 ^ 31 exactly when its signed reading is that number. -/
theorem word_eq_class_iff (l : BitVec 32) (c : ℕ) (hc : c < 2 ^ 31) : l = BitVec.ofNat 32 c ↔ l.toInt = (c : ℤ) := by
  have hv : (BitVec.ofNat 32 c).toInt = (c : ℤ) := by
    rw [BitVec.toInt_eq_toNat_cond, BitVec.toNat_ofNat, Nat.mod_eq_of_lt (by omega), if_pos (by omega)]
  rw [← hv]; exact BitVec.toInt_inj.symm

/-- The label column compared with the column number, as a number: 1 in the column that is the row's label, else 0. -/
theorem mask_apply {a b : ℕ} (hb : b ≤ 2 ^ 31) (lab : IVec ⟨2, ![a, 1]⟩ 32)
    (hB : (⟨2, ![a, 1]⟩ : Shape).Broadcasts ⟨2, ![a, b]⟩) (hI : (⟨2, ![a, b]⟩ : Shape).Iotas .tc 32 [1]) (hlt : 1 < 32)
    (t : Fin a) (q : Fin b) :
    sitofp (F := Ideal) .f32 (extui 32 (cmpi .eq (broadcastTo ⟨2, ![a, b]⟩ lab hB) (iota .tc ⟨2, ![a, b]⟩ 32 [1] hI)) hlt) (ix2 t q)
      = if (lab (ix2 t (0 : Fin 1))).toInt = (q.val : ℤ) then (1 : EReal) else 0 := by
  show ((((IntOp.cmpi .eq (broadcastTo ⟨2, ![a, b]⟩ lab hB (ix2 t q)) (iota .tc ⟨2, ![a, b]⟩ 32 [1] hI (ix2 t q))).setWidth 32).toInt : ℝ) : EReal) = _
  rw [broadcastTo_a1_ab_apply, iota_single_apply]
  show ((((IntOp.cmpi .eq (lab (ix2 t (0 : Fin 1))) (BitVec.ofNat 32 q.val)).setWidth 32).toInt : ℝ) : EReal) = _
  simp only [← word_eq_class_iff _ _ (lt_of_lt_of_le q.isLt hb)]
  by_cases h : lab (ix2 t (0 : Fin 1)) = BitVec.ofNat 32 q.val
  · simp [IntOp.cmpi, h]
  · simp [IntOp.cmpi, h, beq_eq_false_iff_ne.2 h]

/-- A product with one contracted axis, added to the zero array, is the sum over that axis's coordinate. -/
theorem matmul_single_apply {sl sr so : Shape} {φ₁ φ₂ : FTy} (D : DotDims sl sr so) (k : ℕ) (hr : D.contr.rank = 1)
    (hs : D.contr.size ⟨0, by omega⟩ = k) (A : FVec Ideal sl φ₁) (B : FVec Ideal sr φ₂) (j : so.Idx)
    (il : Fin k → sl.Idx) (ir : Fin k → sr.Idx) (hl : ∀ c, D.lhsIdx j ((contrEquiv1 D k hr hs).symm c) = il c)
    (hr' : ∀ c, D.rhsIdx j ((contrEquiv1 D k hr hs).symm c) = ir c) :
    matmul (F := Ideal) D none A B (constant so .f32 0x00000000#32) j = ∑ c : Fin k, A (il c) * B (ir c) := by
  simp only [matmul]
  rw [Ideal.matmul_constant_zero_apply, ← Equiv.sum_comp (contrEquiv1 D k hr hs).symm]
  exact Finset.sum_congr rfl fun c _ => by rw [hl c, hr' c]

/-- Rows by columns: m × k by k × n. -/
theorem matmulNN_apply {m k n : ℕ} {φ₁ φ₂ : FTy} (w : DotDims.WF ⟨2, ![m, k]⟩ ⟨2, ![k, n]⟩ ⟨2, ![m, n]⟩ [1] [0] [0] [1] [] [])
    (A : FVec Ideal ⟨2, ![m, k]⟩ φ₁) (B : FVec Ideal ⟨2, ![k, n]⟩ φ₂) (a : Fin m) (b : Fin n) :
    matmul (F := Ideal) (⟨[1], [0], [0], [1], [], [], w⟩ : DotDims _ _ _) none A B (constant ⟨2, ![m, n]⟩ .f32 0x00000000#32) (ix2 a b)
      = ∑ c : Fin k, A (ix2 a c) * B (ix2 c b) :=
  matmul_single_apply _ k rfl rfl A B _ _ _ (fun c => by funext ax; fin_cases ax <;> rfl) (fun c => by funext ax; fin_cases ax <;> rfl)

/-- Both operands contracted on their first axis: k × m by k × n. -/
theorem matmulTN_apply {m k n : ℕ} {φ₁ φ₂ : FTy} (w : DotDims.WF ⟨2, ![k, m]⟩ ⟨2, ![k, n]⟩ ⟨2, ![m, n]⟩ [0] [0] [1] [1] [] [])
    (A : FVec Ideal ⟨2, ![k, m]⟩ φ₁) (B : FVec Ideal ⟨2, ![k, n]⟩ φ₂) (a : Fin m) (b : Fin n) :
    matmul (F := Ideal) (⟨[0], [0], [1], [1], [], [], w⟩ : DotDims _ _ _) none A B (constant ⟨2, ![m, n]⟩ .f32 0x00000000#32) (ix2 a b)
      = ∑ c : Fin k, A (ix2 c a) * B (ix2 c b) :=
  matmul_single_apply _ k rfl rfl A B _ _ _ (fun c => by funext ax; fin_cases ax <;> rfl) (fun c => by funext ax; fin_cases ax <;> rfl)

section Stages

variable {n c : ℕ} (z : FVec Ideal ⟨2, ![n, c]⟩ .f32) (lab : IVec ⟨2, ![n, 1]⟩ 32)
  (hR : (⟨2, ![n, c]⟩ : Shape).Reduces [1] ⟨1, ![n]⟩) (hφ : FKind.Formats .f32)
  (haccM : (0xFF800000#32 : BitVec 32) = FKind.neutral .maximumf .f32 hφ)
  (haccA : (0x00000000#32 : BitVec 32) = FKind.neutral .add .f32 hφ)
  (hC : (⟨1, ![n]⟩ : Shape).ShapeCasts ⟨2, ![n, 1]⟩) (hB : (⟨2, ![n, 1]⟩ : Shape).Broadcasts ⟨2, ![n, c]⟩)
  (hI : (⟨2, ![n, c]⟩ : Shape).Iotas .tc 32 [1]) (hlt : 1 < 32)

/-- A row over its norm, the norm kept above the guard: the spec's unit row. -/
theorem unitRows_apply (t : Fin n) (e : Fin c) :
    divf z (broadcastTo ⟨2, ![n, c]⟩ (maximumf (sqrt (shapeCast ⟨2, ![n, 1]⟩
        (multiReduction (F := Ideal) .add [1] ⟨1, ![n]⟩ (mulf z z) 0x00000000#32 hR hφ haccA) hC))
        (broadcast ⟨2, ![n, 1]⟩ (Scalar.ofBits .f32 0x2B8CBCCC#32))) hB) (ix2 t e)
      = Cert.Spec.unitRow (fun e : Fin c => z (ix2 t e)) e := by
  rw [divf_apply, broadcastTo_a1_ab_apply, maximumf_apply]
  show Ideal.div (z (ix2 t e)) (max (Ideal.sqrt (shapeCast ⟨2, ![n, 1]⟩ _ hC (ix2 t (0 : Fin 1))))
    (Ideal.ofBits .f32 0x2B8CBCCC#32)) = _
  rw [shapeCast_a_a1_apply, rowSum_apply]
  rfl

/-- The column of the rows' maxima plus the logarithms of the summed exponentials of the shifted rows. -/
def lseCol : FVec Ideal ⟨2, ![n, 1]⟩ .f32 :=
  addf (shapeCast ⟨2, ![n, 1]⟩ (multiReduction (F := Ideal) .maximumf [1] ⟨1, ![n]⟩ z 0xFF800000#32 hR hφ haccM) hC)
    (log (shapeCast ⟨2, ![n, 1]⟩ (multiReduction (F := Ideal) .add [1] ⟨1, ![n]⟩
      (exp (subf z (broadcastTo ⟨2, ![n, c]⟩
        (shapeCast ⟨2, ![n, 1]⟩ (multiReduction (F := Ideal) .maximumf [1] ⟨1, ![n]⟩ z 0xFF800000#32 hR hφ haccM) hC) hB)))
      0x00000000#32 hR hφ haccA) hC))

/-- At a row it is the spec's log-sum-exp of the row. -/
theorem lse_apply (t : Fin n) :
    lseCol z hR hφ haccM haccA hC hB (ix2 t (0 : Fin 1)) = Cert.Spec.lse (fun q : Fin c => z (ix2 t q)) := by
  unfold lseCol
  rw [addf_apply]
  show shapeCast ⟨2, ![n, 1]⟩ _ hC (ix2 t (0 : Fin 1)) + Ideal.log (shapeCast ⟨2, ![n, 1]⟩ _ hC (ix2 t (0 : Fin 1))) = _
  rw [shapeCast_a_a1_apply, shapeCast_a_a1_apply, rowMax_apply, rowSum_apply]
  refine congrArg (fun s => (Finset.univ.sup fun q : Fin c => z (ix2 t q)) + Ideal.log s) (Finset.sum_congr rfl fun q _ => ?_)
  show Ideal.exp (z (ix2 t q) - broadcastTo ⟨2, ![n, c]⟩ _ hB (ix2 t q)) = _
  rw [broadcastTo_a1_ab_apply, shapeCast_a_a1_apply, rowMax_apply]
  rfl

/-- The column of the rows' masked sums: the mask times the row, summed along the row. -/
def pickedCol : FVec Ideal ⟨2, ![n, 1]⟩ .f32 :=
  shapeCast ⟨2, ![n, 1]⟩ (multiReduction (F := Ideal) .add [1] ⟨1, ![n]⟩
    (mulf (sitofp (F := Ideal) .f32 (extui 32 (cmpi .eq (broadcastTo ⟨2, ![n, c]⟩ lab hB) (iota .tc ⟨2, ![n, c]⟩ 32 [1] hI)) hlt)) z)
    0x00000000#32 hR hφ haccA) hC

/-- At a row it is the row's entry at the row's label, as the spec writes it. -/
theorem picked_apply (hc : c ≤ 2 ^ 31) (t : Fin n) :
    pickedCol z lab hR hφ haccA hC hB hI hlt (ix2 t (0 : Fin 1))
      = ∑ q : Fin c, (if (lab (ix2 t (0 : Fin 1))).toInt = (q.val : ℤ) then (1 : EReal) else 0) * z (ix2 t q) := by
  unfold pickedCol
  rw [shapeCast_a_a1_apply, rowSum_apply]
  exact Finset.sum_congr rfl fun q _ => by rw [mulf_apply, mask_apply hc]

/-- Their difference, summed over the rows: the sum of the rows' losses. -/
theorem tile_apply (hc : c ≤ 2 ^ 31) (hR0 : (⟨2, ![n, 1]⟩ : Shape).Reduces [0] ⟨1, ![1]⟩)
    (hC1 : (⟨1, ![1]⟩ : Shape).ShapeCasts ⟨2, ![1, 1]⟩) :
    shapeCast ⟨2, ![1, 1]⟩ (multiReduction (F := Ideal) .add [0] ⟨1, ![1]⟩
      (subf (lseCol z hR hφ haccM haccA hC hB) (pickedCol z lab hR hφ haccA hC hB hI hlt))
      0x00000000#32 hR0 hφ haccA) hC1 (ix2 (0 : Fin 1) (0 : Fin 1))
      = ∑ t : Fin n, Cert.Spec.rowLoss (fun q : Fin c => z (ix2 t q)) (lab (ix2 t (0 : Fin 1))) := by
  rw [shapeCast_a_1a_apply, colSum_apply]
  refine Finset.sum_congr rfl fun t _ => ?_
  rw [subf_apply, lse_apply, picked_apply (hc := hc)]
  rfl

end Stages

end Cert.KernelIdeal.KV

end
-- ==== Proof.KV.StatsTile.lean ====
import proofs.«419305_j85452669321568_1_alg».proof.Proof.Gen.KernelIdeal.Skeleton
import proofs.«419305_j85452669321568_1_alg».proof.Proof.KV.LossTileOps

noncomputable section

open scoped BigOperators
open Idealize.ShloMosaic Idealize.ShloMosaic.ValueIdx Cert.KernelIdeal Cert.KernelIdeal.Gen

namespace Cert.KernelIdeal.KV

/-- The tile's mask: 1 at (row, class) when the row's label is the class, else 0. -/
theorem stats_mask_apply (x1 : Vec Ideal S2048x1 .i32) (t : Fin 2048) (c : Fin 50) :
    k0_pay4 (F := Ideal) x1 (ix2 t c) = if (x1 (ix2 t (0 : Fin 1))).toInt = (c.val : Int) then (1 : EReal) else 0 := by
  refine (mask_apply (by norm_num) _ _ _ _ t c).trans ?_
  rw [shapeCast_self]

theorem stats_zero_sums (i : S1x50x64.Idx) : k0_pay2 (F := Ideal) i = 0 := Ideal.ofBits_zero_f32

theorem stats_zero_cnt (i : S1x1x50.Idx) : k0_pay3 (F := Ideal) i = 0 := Ideal.ofBits_zero_f32

/-- A tile adds, at a class, the unit rows of its rows that carry the class: the mask contracted against the unit rows. -/
theorem stats_sums_apply (x0 : Vec Ideal S2048x64 .f32) (x1 : Vec Ideal S2048x1 .i32) (acc : Vec Ideal S1x50x64 .f32)
    (cls : Fin 50) (d : Fin 64) :
    k0_pay5 (F := Ideal) x0 x1 acc (ix3 (0 : Fin 1) cls d)
      = acc (ix3 (0 : Fin 1) cls d) + ∑ t : Fin 2048, if (x1 (ix2 t (0 : Fin 1))).toInt = (cls.val : Int)
          then Cert.Spec.unitRow (fun e : Fin 64 => x0 (ix2 t e)) d else 0 := by
  unfold k0_pay5
  simp only []
  rw [shapeCast_ab_1ab_apply, addf_apply, shapeCast_1ab_ab_apply]
  refine congrArg (acc (ix3 (0 : Fin 1) cls d) + ·) ((matmulTN_apply _ _ _ cls d).trans (Finset.sum_congr rfl fun t _ => ?_))
  exact (congrArg₂ (· * ·) (stats_mask_apply x1 t cls) (unitRows_apply x0 _ _ _ _ _ t d)).trans (boole_mul _ _)

/-- A tile adds, at a class, the number of its rows that carry the class: the mask summed over the rows. -/
theorem stats_cnt_apply (x1 : Vec Ideal S2048x1 .i32) (acc : Vec Ideal S1x1x50 .f32) (cls : Fin 50) :
    k0_pay1 (F := Ideal) (k0_pay6 x1 acc) (ix3 (0 : Fin 1) (0 : Fin 1) cls)
      = acc (ix3 (0 : Fin 1) (0 : Fin 1) cls) + ∑ t : Fin 2048, if (x1 (ix2 t (0 : Fin 1))).toInt = (cls.val : Int)
          then (1 : EReal) else 0 := by
  unfold k0_pay1 k0_pay6
  simp only []
  rw [shapeCast_ab_1ab_apply, addf_apply, shapeCast_1ab_ab_apply, shapeCast_a_1a_apply]
  exact congrArg (acc (ix3 (0 : Fin 1) (0 : Fin 1) cls) + ·)
    ((colSum_apply _ _ _ _ cls).trans (Finset.sum_congr rfl fun t _ => stats_mask_apply x1 t cls))

end Cert.KernelIdeal.KV

end
-- ==== Proof.KV.StatsTile1.lean ====
import proofs.«419305_j85452669321568_1_alg».proof.Proof.Gen.KernelIdeal.Skeleton
import proofs.«419305_j85452669321568_1_alg».proof.Proof.KV.LossTileOps

noncomputable section

open scoped BigOperators
open Idealize.ShloMosaic Idealize.ShloMosaic.ValueIdx Cert.KernelIdeal Cert.KernelIdeal.Gen

namespace Cert.KernelIdeal.KV

/-- The tile's mask: 1 at (row, class) when the row's label is the class, else 0. -/
theorem stats1_mask_apply (x1 : Vec Ideal S4096x1 .i32) (t : Fin 4096) (c : Fin 200) :
    k1_pay4 (F := Ideal) x1 (ix2 t c) = if (x1 (ix2 t (0 : Fin 1))).toInt = (c.val : Int) then (1 : EReal) else 0 := by
  refine (mask_apply (by norm_num) _ _ _ _ t c).trans ?_
  rw [shapeCast_self]

theorem stats1_zero_sums (i : S1x200x64.Idx) : k1_pay2 (F := Ideal) i = 0 := Ideal.ofBits_zero_f32

theorem stats1_zero_cnt (i : S1x1x200.Idx) : k1_pay3 (F := Ideal) i = 0 := Ideal.ofBits_zero_f32

/-- A tile adds, at a class, the unit rows of its rows that carry the class: the mask contracted against the unit rows. -/
theorem stats1_sums_apply (x0 : Vec Ideal S4096x64 .f32) (x1 : Vec Ideal S4096x1 .i32) (acc : Vec Ideal S1x200x64 .f32)
    (cls : Fin 200) (d : Fin 64) :
    k1_pay5 (F := Ideal) x0 x1 acc (ix3 (0 : Fin 1) cls d)
      = acc (ix3 (0 : Fin 1) cls d) + ∑ t : Fin 4096, if (x1 (ix2 t (0 : Fin 1))).toInt = (cls.val : Int)
          then Cert.Spec.unitRow (fun e : Fin 64 => x0 (ix2 t e)) d else 0 := by
  unfold k1_pay5
  simp only []
  rw [shapeCast_ab_1ab_apply, addf_apply, shapeCast_1ab_ab_apply]
  refine congrArg (acc (ix3 (0 : Fin 1) cls d) + ·) ((matmulTN_apply _ _ _ cls d).trans (Finset.sum_congr rfl fun t _ => ?_))
  exact (congrArg₂ (· * ·) (stats1_mask_apply x1 t cls) (unitRows_apply x0 _ _ _ _ _ t d)).trans (boole_mul _ _)

/-- A tile adds, at a class, the number of its rows that carry the class: the mask summed over the rows. -/
theorem stats1_cnt_apply (x1 : Vec Ideal S4096x1 .i32) (acc : Vec Ideal S1x1x200 .f32) (cls : Fin 200) :
    k1_pay1 (F := Ideal) (k1_pay6 x1 acc) (ix3 (0 : Fin 1) (0 : Fin 1) cls)
      = acc (ix3 (0 : Fin 1) (0 : Fin 1) cls) + ∑ t : Fin 4096, if (x1 (ix2 t (0 : Fin 1))).toInt = (cls.val : Int)
          then (1 : EReal) else 0 := by
  unfold k1_pay1 k1_pay6
  simp only []
  rw [shapeCast_ab_1ab_apply, addf_apply, shapeCast_1ab_ab_apply, shapeCast_a_1a_apply]
  exact congrArg (acc (ix3 (0 : Fin 1) (0 : Fin 1) cls) + ·)
    ((colSum_apply _ _ _ _ cls).trans (Finset.sum_congr rfl fun t _ => stats1_mask_apply x1 t cls))

end Cert.KernelIdeal.KV

end
-- ==== Proof.KV.LossTile.lean ====
import proofs.«419305_j85452669321568_1_alg».proof.Proof.Gen.KernelIdeal.Skeleton
import proofs.«419305_j85452669321568_1_alg».proof.Proof.KV.LossTileOps

noncomputable section

open scoped BigOperators
open Idealize.ShloMosaic Idealize.ShloMosaic.ValueIdx Cert.KernelIdeal Cert.KernelIdeal.Gen

namespace Cert.KernelIdeal.KV

theorem loss_zero (i : S1x1x1.Idx) : k2_pay2 (F := Ideal) i = 0 := Ideal.ofBits_zero_f32

/-- Each step adds the tile's number to the running sum. -/
theorem loss_acc_apply (v40 : FVec Ideal S1x1 .f32) (acc : Vec Ideal S1x1x1 .f32) :
    k2_pay1 (F := Ideal) v40 acc (ix3 (0 : Fin 1) (0 : Fin 1) (0 : Fin 1))
      = acc (ix3 (0 : Fin 1) (0 : Fin 1) (0 : Fin 1)) + v40 (ix2 (0 : Fin 1) (0 : Fin 1)) := by
  unfold k2_pay1
  rw [shapeCast_ab_1ab_apply, addf_apply, shapeCast_1ab_ab_apply]

/-- The tile's number: the sum over its rows of the row's loss, the logits being the unit rows against the prototypes over the temperature. -/
theorem loss_tile_apply (x0 : Vec Ideal S2048x64 .f32) (pt : Vec Ideal S64x50 .f32) (x1 : Vec Ideal S2048x1 .i32) :
    k2_pay3 (F := Ideal) x0 pt x1 (ix2 (0 : Fin 1) (0 : Fin 1))
      = ∑ t : Fin 2048, Cert.Spec.rowLoss
          (Cert.Spec.logit (fun e : Fin 64 => x0 (ix2 t e)) (fun (cl : Fin 50) (e : Fin 64) => pt (ix2 e cl)))
          (x1 (ix2 t (0 : Fin 1))) := by
  unfold k2_pay3
  refine (tile_apply _ _ _ _ _ _ _ _ _ _ (by norm_num) _ _).trans (Finset.sum_congr rfl fun t _ => ?_)
  refine congrArg₂ Cert.Spec.rowLoss (funext fun cl => ?_) (congrFun (shapeCast_self x1 _) _)
  refine congrArg (Ideal.div · Cert.Spec.temp) ((matmulNN_apply _ _ _ t cl).trans (Finset.sum_congr rfl fun e _ => ?_))
  exact congrArg₂ (· * ·) (unitRows_apply x0 _ _ _ _ _ t e) (congrFun (shapeCast_self pt _) _)

end Cert.KernelIdeal.KV

end
-- ==== Proof.KV.LossTile3.lean ====
import proofs.«419305_j85452669321568_1_alg».proof.Proof.Gen.KernelIdeal.Skeleton
import proofs.«419305_j85452669321568_1_alg».proof.Proof.KV.LossTileOps

noncomputable section

open scoped BigOperators
open Idealize.ShloMosaic Idealize.ShloMosaic.ValueIdx Cert.KernelIdeal Cert.KernelIdeal.Gen

namespace Cert.KernelIdeal.KV

theorem loss3_zero (i : S1x1x1.Idx) : k3_pay2 (F := Ideal) i = 0 := Ideal.ofBits_zero_f32

/-- Each step adds the tile's number to the running sum. -/
theorem loss3_acc_apply (v40 : FVec Ideal S1x1 .f32) (acc : Vec Ideal S1x1x1 .f32) :
    k3_pay1 (F := Ideal) v40 acc (ix3 (0 : Fin 1) (0 : Fin 1) (0 : Fin 1))
      = acc (ix3 (0 : Fin 1) (0 : Fin 1) (0 : Fin 1)) + v40 (ix2 (0 : Fin 1) (0 : Fin 1)) := by
  unfold k3_pay1
  rw [shapeCast_ab_1ab_apply, addf_apply, shapeCast_1ab_ab_apply]

/-- The tile's number: the sum over its rows of the row's loss, the logits being the unit rows against the prototypes over the temperature. -/
theorem loss3_tile_apply (x0 : Vec Ideal S4096x64 .f32) (pt : Vec Ideal S64x200 .f32) (x1 : Vec Ideal S4096x1 .i32) :
    k3_pay3 (F := Ideal) x0 pt x1 (ix2 (0 : Fin 1) (0 : Fin 1))
      = ∑ t : Fin 4096, Cert.Spec.rowLoss
          (Cert.Spec.logit (fun e : Fin 64 => x0 (ix2 t e)) (fun (cl : Fin 200) (e : Fin 64) => pt (ix2 e cl)))
          (x1 (ix2 t (0 : Fin 1))) := by
  unfold k3_pay3
  refine (tile_apply _ _ _ _ _ _ _ _ _ _ (by norm_num) _ _).trans (Finset.sum_congr rfl fun t _ => ?_)
  refine congrArg₂ Cert.Spec.rowLoss (funext fun cl => ?_) (congrFun (shapeCast_self x1 _) _)
  refine congrArg (Ideal.div · Cert.Spec.temp) ((matmulNN_apply _ _ _ t cl).trans (Finset.sum_congr rfl fun e _ => ?_))
  exact congrArg₂ (· * ·) (unitRows_apply x0 _ _ _ _ _ t e) (congrFun (shapeCast_self pt _) _)

end Cert.KernelIdeal.KV

end
-- ==== Proof.KV.RunSum.lean ====
import Idealize.ShloMosaic.Lib.Pipeline.Value
import Idealize.ShloMosaic.Lib.ValueIdx

open Idealize.ShloMosaic Idealize.ShloMosaic.ValueIdx

namespace Cert.KernelIdeal.KV

-- An index into a block with a leading unit axis is its other two coordinates behind a zero.
theorem ix3_unit {n1 n2 : ℕ} (i : (⟨3, ![1, n1, n2]⟩ : Shape).Idx) : @ix3 1 n1 n2 0 (i 1) (i 2) = i := by
  rw [← Fin.eq_zero (i 0)]; exact (eq_ix3 i).symm

-- What restarts from M n at the multiples of J and grows by M n at every other point is the sum of M over the run it is in.
theorem runSum {N : ℕ} {ι β : Type*} [AddCommMonoid β] (f : (n : ℕ) → n < N → ι → β) (M : ℕ → ι → β) {J : ℕ} (hJ : 0 < J)
    (h0 : ∀ (n : ℕ) (h : n < N), n % J = 0 → f n h = fun i => 0 + M n i)
    (hs : ∀ (n : ℕ) (h : n + 1 < N), ¬(n + 1) % J = 0 → f (n + 1) h = fun i => f n (Nat.lt_of_succ_lt h) i + M (n + 1) i)
    (t : ℕ) (ht : t < N) (i : ι) : f t ht i = ∑ s ∈ Finset.range (t % J + 1), M (t / J * J + s) i := by
  have h' : J * (t / J) + t % J < N := (Nat.div_add_mod t J).symm ▸ ht
  rw [Pipeline.eq_accAt_of_mod f J (fun n _ i => 0 + M n i) (fun n _ acc i => acc i + M n i) h0 hs hJ t ht h',
    Pipeline.accAt_add_apply _ _ 0 M _ (t % J) (fun _ _ => rfl) (fun _ _ _ _ _ _ => rfl) _ le_rfl h' i, Nat.mul_comm]
  exact zero_add _

end Cert.KernelIdeal.KV
-- ==== Proof.KV.StatsAcc.lean ====
import proofs.«419305_j85452669321568_1_alg».proof.Proof.Gen.KernelIdeal.Frame
import proofs.«419305_j85452669321568_1_alg».proof.Proof.Math.Spec
import proofs.«419305_j85452669321568_1_alg».proof.Proof.KV.RunSum
import Idealize.ShloMosaic.Lib.QrPanel.Panel

noncomputable section

open Idealize.ShloMosaic Idealize.ShloMosaic.TcCoe Idealize.SL.Sem Idealize.ShloMosaic.ValueIdx
open Idealize.ShloMosaic.QrPanel.Panel (zeros2 zeros3)

namespace Cert.KernelIdeal.KV

open Cert.KernelIdeal Cert.KernelIdeal.Gen

section Pieces

variable {F : FTy → Type} [FloatOps F] (c : Dev nD) (i : grid0.Coords)
  (a2 : Memref sig .tc .vmem S2048x64 .f32) (h2 : a2.IsWhole) (a3 : Memref sig .tc .vmem S2048x1 .i32) (h3 : a3.IsWhole)
  (a4 : Memref sig .tc .vmem S1x50x64 .f32) (h4 : a4.IsWhole) (a5 : Memref sig .tc .vmem S1x1x50 .f32) (h5 : a5.IsWhole)
  (x0 : Vec F S2048x64 .f32) (x1 : Vec F S2048x1 .i32) (xo2 : Vec F S1x50x64 .f32) (xo3 : Vec F S1x1x50 .f32)

theorem out0_B_2_eq (hc : ¬cond0_0 i) : out0_B_2 c i a2 h2 a3 h3 a4 h4 a5 h5 hc x0 x1 xo2 xo3 = k0_pay5 x0 x1 xo2 := by
  unfold out0_B_2
  rw [View.read_writes_eq_canon _ _ _ fun y => cover0_B_2 (y := y) ..]
  unfold kernelRun0_B
  dsimp only
  sl_unfold_words
  rw [View.canon_unit_zero (S := S1x50x64) zeros3]
  simp only [View.readAt_eq_ld, h2.read_unread, h3.read_unread, h4.read_unread, View.ld_unit_zero (S := S2048x64) zeros2,
    View.ld_unit_zero (S := S2048x1) zeros2, View.ld_unit_zero (S := S1x50x64) zeros3]

theorem out0_B_3_eq (hc : ¬cond0_0 i) : out0_B_3 c i a2 h2 a3 h3 a4 h4 a5 h5 hc x0 x1 xo2 xo3 = k0_pay1 (k0_pay6 x1 xo3) := by
  unfold out0_B_3
  rw [View.read_writes_eq_canon _ _ _ fun y => cover0_B_3 (y := y) ..]
  unfold kernelRun0_B
  dsimp only
  sl_unfold_words
  rw [View.canon_unit_zero (S := S1x1x50) zeros3]
  simp only [View.readAt_eq_ld, h3.read_unread, h5.read_unread, View.ld_unit_zero (S := S2048x1) zeros2,
    View.ld_unit_zero (S := S1x1x50) zeros3]

theorem out0_A_2_eq (hc : cond0_0 i) : out0_A_2 c i a2 h2 a3 h3 a4 h4 a5 h5 hc x0 x1 = k0_pay5 x0 x1 k0_pay2 := by
  unfold out0_A_2
  rw [View.read_writes_eq_canon _ _ _ fun y => cover0_A_2 (y := y) ..]
  unfold kernelRun0_A
  dsimp only
  sl_unfold_words
  rw [View.canon_cons_unit_zero (S := S1x50x64) zeros3, View.readCov_unit_zero (S := S1x50x64) _ zeros3]
  simp only [View.readAt_eq_ld, h2.read_unread, h3.read_unread, View.ld_unit_zero (S := S2048x64) zeros2,
    View.ld_unit_zero (S := S2048x1) zeros2]

theorem out0_A_3_eq (hc : cond0_0 i) : out0_A_3 c i a2 h2 a3 h3 a4 h4 a5 h5 hc x0 x1 = k0_pay1 (k0_pay6 x1 k0_pay3) := by
  unfold out0_A_3
  rw [View.read_writes_eq_canon _ _ _ fun y => cover0_A_3 (y := y) ..]
  unfold kernelRun0_A
  dsimp only
  sl_unfold_words
  rw [View.canon_cons_unit_zero (S := S1x1x50) zeros3, View.readCov_unit_zero (S := S1x1x50) _ zeros3]
  simp only [View.readAt_eq_ld, h3.read_unread, View.ld_unit_zero (S := S2048x1) zeros2]

end Pieces

variable (V : (c : Dev nD) → (b : Ref sig .tc) → Buf (Elt Ideal) ((c : Thread nD τ).loc b))

abbrev feat0 (c : Dev nD) : Vec Ideal S65536x64 .f32 := V c main_arg0
abbrev lab0 (c : Dev nD) : Vec Ideal S65536x1 .i32 := V c main_v0
abbrev sumsOut0 (c : Dev nD) : Vec Ideal S2x50x64 .f32 := (dat0 (F := Ideal) V c).arrAt 2 cfg0.N
abbrev cntOut0 (c : Dev nD) : Vec Ideal S2x1x50 .f32 := (dat0 (F := Ideal) V c).arrAt 3 cfg0.N

theorem rows0 : (65536 : ℕ) = 2 * 16 * 2048 := by norm_num

abbrev fblk0 (c : Dev nD) (t : Fin cfg0.N) : Vec Ideal S2048x64 .f32 := iblk0 V c 0 t
abbrev lblk0 (c : Dev nD) (t : Fin cfg0.N) : Vec Ideal S2048x1 .i32 := iblk0 V c 1 t

theorem points0 : cfg0.N = 2 * 16 := N_0

theorem index0 : ∀ t : Fin grid0.N,
    (win0_0.index t 0 = t.val ∧ win0_0.index t 1 = 0) ∧ (win0_1.index t 0 = t.val ∧ win0_1.index t 1 = 0)
    ∧ (win0_2.index t 0 = t.val / 16 ∧ win0_2.index t 1 = 0 ∧ win0_2.index t 2 = 0)
    ∧ (win0_3.index t 0 = t.val / 16 ∧ win0_3.index t 1 = 0 ∧ win0_3.index t 2 = 0) := by
  decide +kernel

theorem row_lt0 (t : Fin cfg0.N) (r : Fin 2048) : t.val * 2048 + r.val < 65536 := by
  have := t.isLt; have := r.isLt; have := points0; omega

theorem fblk0_apply (c : Dev nD) (t : Fin cfg0.N) (r : Fin 2048) (e : Fin 64) :
    fblk0 V c t (ix2 r e) = feat0 V c (ix2 ⟨t.val * 2048 + r.val, row_lt0 t r⟩ e) :=
  congrArg (V c main_arg0) (Shape.idx_ext₂ ((win0_0.rect_emb_val t _ 0).trans (by rw [(index0 t).1.1]; rfl))
    (win0_0.rect_emb_val_of_index_zero t 1 (index0 t).1.2 _))

theorem lblk0_apply (c : Dev nD) (t : Fin cfg0.N) (r : Fin 2048) :
    lblk0 V c t (ix2 r (0 : Fin 1)) = lab0 V c (ix2 ⟨t.val * 2048 + r.val, row_lt0 t r⟩ (0 : Fin 1)) :=
  congrArg (V c main_v0) (Shape.idx_ext₂ ((win0_1.rect_emb_val t _ 0).trans (by rw [(index0 t).2.1.1]; rfl))
    (win0_1.rect_emb_val_of_index_zero t 1 (index0 t).2.1.2 _))

def StatsTileFacts : Prop :=
  (∀ i : S1x50x64.Idx, k0_pay2 (F := Ideal) i = 0) ∧ (∀ i : S1x1x50.Idx, k0_pay3 (F := Ideal) i = 0)
  ∧ (∀ (x0 : Vec Ideal S2048x64 .f32) (x1 : Vec Ideal S2048x1 .i32) (acc : Vec Ideal S1x50x64 .f32) (cls : Fin 50) (d : Fin 64),
      k0_pay5 (F := Ideal) x0 x1 acc (ix3 (0 : Fin 1) cls d) = acc (ix3 (0 : Fin 1) cls d) + ∑ t : Fin 2048, if (x1 (ix2 t (0 : Fin 1))).toInt = (cls.val : Int) then Cert.Spec.unitRow (fun e : Fin 64 => x0 (ix2 t e)) d else 0)
  ∧ (∀ (x1 : Vec Ideal S2048x1 .i32) (acc : Vec Ideal S1x1x50 .f32) (cls : Fin 50),
      k0_pay1 (F := Ideal) (k0_pay6 x1 acc) (ix3 (0 : Fin 1) (0 : Fin 1) cls) = acc (ix3 (0 : Fin 1) (0 : Fin 1) cls) + ∑ t : Fin 2048, if (x1 (ix2 t (0 : Fin 1))).toInt = (cls.val : Int) then (1 : EReal) else 0)

-- The rows of tile n whose label is cls, each weighted by w (nothing past the grid).
def tile0 (c : Dev nD) (w : Fin 65536 → EReal) (cls n : ℕ) : EReal :=
  if h : n < cfg0.N then ∑ r : Fin 2048,
    if (lab0 V c (ix2 ⟨n * 2048 + r.val, row_lt0 ⟨n, h⟩ r⟩ (0 : Fin 1))).toInt = (cls : Int) then w ⟨n * 2048 + r.val, row_lt0 ⟨n, h⟩ r⟩ else 0
  else 0

-- The same over the 16 tiles of part p.
def part0 (c : Dev nD) (w : Fin 65536 → EReal) (p : Fin 2) (cls : ℕ) : EReal :=
  ∑ k : Fin 16, ∑ t : Fin 2048,
    if (lab0 V c (ix2 (Cert.Spec.tileRow rows0 p k t) (0 : Fin 1))).toInt = (cls : Int) then w (Cert.Spec.tileRow rows0 p k t) else 0

theorem part_of0 (t : Fin cfg0.N) : t.val / 16 < 2 := by have := t.isLt; have := points0; omega

theorem part0_eq (c : Dev nD) (w : Fin 65536 → EReal) (p : Fin 2) (cls : ℕ) :
    ∑ s ∈ Finset.range 16, tile0 V c w cls (p.val * 16 + s) = part0 V c w p cls := by
  rw [Finset.sum_range]
  exact Finset.sum_congr rfl fun k _ => dif_pos (by have := p.isLt; have := k.isLt; have := points0; omega)

-- The weight of a row in the sum at feature d: its unit row there.
abbrev unit0 (c : Dev nD) (d : Fin 64) (ρ : Fin 65536) : EReal := Cert.Spec.unitRow (fun e : Fin 64 => feat0 V c (ix2 ρ e)) d

theorem pay0_5 (hT : StatsTileFacts) (c : Dev nD) (t : Fin cfg0.N) (acc : Vec Ideal S1x50x64 .f32) (i : S1x50x64.Idx) :
    k0_pay5 (F := Ideal) (fblk0 V c t) (lblk0 V c t) acc i = acc i + tile0 V c (unit0 V c (i 2)) (i 1).val t.val := by
  have h := hT.2.2.1 (fblk0 V c t) (lblk0 V c t) acc (i 1) (i 2)
  rw [ix3_unit i] at h
  rw [h, tile0, dif_pos t.isLt]
  simp only [fblk0_apply, lblk0_apply]

theorem pay0_1 (hT : StatsTileFacts) (c : Dev nD) (t : Fin cfg0.N) (acc : Vec Ideal S1x1x50 .f32) (i : S1x1x50.Idx) :
    k0_pay1 (F := Ideal) (k0_pay6 (lblk0 V c t) acc) i = acc i + tile0 V c (fun _ => 1) (i 2).val t.val := by
  have h := hT.2.2.2 (lblk0 V c t) acc (i 2)
  have e := ix3_unit i
  rw [Fin.eq_zero (i 1)] at e
  rw [e] at h
  rw [h, tile0, dif_pos t.isLt]
  simp only [lblk0_apply]

def sumsAll0 (c : Dev nD) : Vec Ideal S2x50x64 .f32 := fun j => part0 V c (unit0 V c (j 2)) (j 0) (j 1).val
def cntAll0 (c : Dev nD) : Vec Ideal S2x1x50 .f32 := fun j => part0 V c (fun _ => 1) (j 0) (j 2).val

theorem emb0_2 (t : Fin cfg0.N) (p : Fin 2) (hp : t.val / 16 = p.val) (y : (win0_2.xblock (grid0.coords t)).Idx) :
    ((cfg0.win 2).blk t).view.emb y = ix3 p ⟨(y 1).val, (y 1).isLt⟩ ⟨(y 2).val, (y 2).isLt⟩ := by
  have hi := (index0 t).2.2.1
  have hy : (y 0).val < 1 := (y 0).isLt
  funext a; apply Fin.ext
  match a with
  | ⟨0, _⟩ => exact (win0_2.rect_emb_val t y 0).trans (by rw [hi.1, hp]; show _ * 1 + (y 0).val = p.val; omega)
  | ⟨1, _⟩ => exact win0_2.rect_emb_val_of_index_zero t 1 hi.2.1 y
  | ⟨2, _⟩ => exact win0_2.rect_emb_val_of_index_zero t 2 hi.2.2 y

theorem emb0_3 (t : Fin cfg0.N) (p : Fin 2) (hp : t.val / 16 = p.val) (y : (win0_3.xblock (grid0.coords t)).Idx) :
    ((cfg0.win 3).blk t).view.emb y = ix3 p ⟨(y 1).val, (y 1).isLt⟩ ⟨(y 2).val, (y 2).isLt⟩ := by
  have hi := (index0 t).2.2.2
  have hy : (y 0).val < 1 := (y 0).isLt
  funext a; apply Fin.ext
  match a with
  | ⟨0, _⟩ => exact (win0_3.rect_emb_val t y 0).trans (by rw [hi.1, hp]; show _ * 1 + (y 0).val = p.val; omega)
  | ⟨1, _⟩ => exact win0_3.rect_emb_val_of_index_zero t 1 hi.2.1 y
  | ⟨2, _⟩ => exact win0_3.rect_emb_val_of_index_zero t 2 hi.2.2 y

theorem flushedSum0 (hT : StatsTileFacts) (c : Dev nD) (t : Fin cfg0.N) (hf : (cfg0.win 2).flush t = true) :
    (dat0 (F := Ideal) V c).flushed 2 t = ((cfg0.win 2).blk t).view.read (Elt Ideal) (sumsAll0 V c) := by
  funext y
  rw [View.read_apply, emb0_2 t ⟨t.val / 16, part_of0 t⟩ rfl y]
  show (outsAt0 V c t.val t.isLt).1 _ = _
  refine (runSum (fun n h => (outsAt0 V c n h).1) (fun n i => tile0 V c (unit0 V c (i 2)) (i 1).val n) (by decide : 0 < 16)
    ?_ ?_ t.val t.isLt _).trans ?_
  · intro n h h0
    rw [outsAt0_A V c ⟨n, h⟩ h0, out0_A_2_eq]
    exact funext fun i => (pay0_5 V hT c ⟨n, h⟩ _ i).trans (by rw [hT.1 i])
  · intro n h h0
    rw [outsAt0_B V c ⟨n + 1, h⟩ h0, out0_B_2_eq]
    exact funext fun i => pay0_5 V hT c ⟨n + 1, h⟩ _ i
  · rw [(flush0_2 t).mp hf]
    exact part0_eq V c _ ⟨t.val / 16, part_of0 t⟩ _

theorem flushedCnt0 (hT : StatsTileFacts) (c : Dev nD) (t : Fin cfg0.N) (hf : (cfg0.win 3).flush t = true) :
    (dat0 (F := Ideal) V c).flushed 3 t = ((cfg0.win 3).blk t).view.read (Elt Ideal) (cntAll0 V c) := by
  funext y
  rw [View.read_apply, emb0_3 t ⟨t.val / 16, part_of0 t⟩ rfl y]
  show (outsAt0 V c t.val t.isLt).2 _ = _
  refine (runSum (fun n h => (outsAt0 V c n h).2) (fun n i => tile0 V c (fun _ => 1) (i 2).val n) (by decide : 0 < 16)
    ?_ ?_ t.val t.isLt _).trans ?_
  · intro n h h0
    rw [outsAt0_A V c ⟨n, h⟩ h0, out0_A_3_eq]
    exact funext fun i => (pay0_1 V hT c ⟨n, h⟩ _ i).trans (by rw [hT.2.1 i])
  · intro n h h0
    rw [outsAt0_B V c ⟨n + 1, h⟩ h0, out0_B_3_eq]
    exact funext fun i => pay0_1 V hT c ⟨n + 1, h⟩ _ i
  · rw [(flush0_3 t).mp hf]
    exact part0_eq V c (fun _ => 1) ⟨t.val / 16, part_of0 t⟩ _

-- Each part has a last point.
theorem last0 (p : Fin 2) : ∃ t : Fin cfg0.N, t.val / 16 = p.val ∧ t.val % 16 = 15 :=
  ⟨⟨16 * p.val + 15, by have := p.isLt; have := points0; omega⟩, by show (16 * p.val + 15) / 16 = p.val; omega,
    by show (16 * p.val + 15) % 16 = 15; omega⟩

theorem sumsOut0_apply (hT : StatsTileFacts) (c : Dev nD) (p : Fin 2) (cls : Fin 50) (d : Fin 64) :
    sumsOut0 V c (ix3 p cls d) = ∑ k : Fin 16, ∑ t : Fin 2048,
      if (lab0 V c (ix2 (Cert.Spec.tileRow rows0 p k t) (0 : Fin 1))).toInt = (cls.val : Int) then Cert.Spec.unitRow (fun e : Fin 64 => feat0 V c (ix2 (Cert.Spec.tileRow rows0 p k t) e)) d else 0 := by
  obtain ⟨t, hp, hl⟩ := last0 p
  have hm := ((cfg0.win 2).blk t).view.emb_mem_set (ix3 0 cls d)
  rw [emb0_2 t p hp] at hm
  exact (dat0 (F := Ideal) V c).arrAt_apply_of_mem 2 (sumsAll0 V c) (flushedSum0 V hT c) _ t _ t.isLt ((flush0_2 t).mpr hl) hm

theorem cntOut0_apply (hT : StatsTileFacts) (c : Dev nD) (p : Fin 2) (cls : Fin 50) :
    cntOut0 V c (ix3 p (0 : Fin 1) cls) = ∑ k : Fin 16, ∑ t : Fin 2048,
      if (lab0 V c (ix2 (Cert.Spec.tileRow rows0 p k t) (0 : Fin 1))).toInt = (cls.val : Int) then (1 : EReal) else 0 := by
  obtain ⟨t, hp, hl⟩ := last0 p
  have hm := ((cfg0.win 3).blk t).view.emb_mem_set (ix3 0 0 cls)
  rw [emb0_3 t p hp] at hm
  exact (dat0 (F := Ideal) V c).arrAt_apply_of_mem 3 (cntAll0 V c) (flushedCnt0 V hT c) _ t _ t.isLt ((flush0_3 t).mpr hl) hm

end Cert.KernelIdeal.KV
-- ==== Proof.KV.StatsAcc1.lean ====
import proofs.«419305_j85452669321568_1_alg».proof.Proof.Gen.KernelIdeal.Frame
import proofs.«419305_j85452669321568_1_alg».proof.Proof.Math.Spec
import proofs.«419305_j85452669321568_1_alg».proof.Proof.KV.RunSum
import Idealize.ShloMosaic.Lib.QrPanel.Panel

noncomputable section

open Idealize.ShloMosaic Idealize.ShloMosaic.TcCoe Idealize.SL.Sem Idealize.ShloMosaic.ValueIdx
open Idealize.ShloMosaic.QrPanel.Panel (zeros2 zeros3)

namespace Cert.KernelIdeal.KV

open Cert.KernelIdeal Cert.KernelIdeal.Gen

section Pieces

variable {F : FTy → Type} [FloatOps F] (c : Dev nD) (i : grid1.Coords)
  (a2 : Memref sig .tc .vmem S4096x64 .f32) (h2 : a2.IsWhole) (a3 : Memref sig .tc .vmem S4096x1 .i32) (h3 : a3.IsWhole)
  (a4 : Memref sig .tc .vmem S1x200x64 .f32) (h4 : a4.IsWhole) (a5 : Memref sig .tc .vmem S1x1x200 .f32) (h5 : a5.IsWhole)
  (x0 : Vec F S4096x64 .f32) (x1 : Vec F S4096x1 .i32) (xo2 : Vec F S1x200x64 .f32) (xo3 : Vec F S1x1x200 .f32)

theorem out1_B_2_eq (hc : ¬cond1_0 i) : out1_B_2 c i a2 h2 a3 h3 a4 h4 a5 h5 hc x0 x1 xo2 xo3 = k1_pay5 x0 x1 xo2 := by
  unfold out1_B_2
  rw [View.read_writes_eq_canon _ _ _ fun y => cover1_B_2 (y := y) ..]
  unfold kernelRun1_B
  dsimp only
  sl_unfold_words
  rw [View.canon_unit_zero (S := S1x200x64) zeros3]
  simp only [View.readAt_eq_ld, h2.read_unread, h3.read_unread, h4.read_unread, View.ld_unit_zero (S := S4096x64) zeros2,
    View.ld_unit_zero (S := S4096x1) zeros2, View.ld_unit_zero (S := S1x200x64) zeros3]

theorem out1_B_3_eq (hc : ¬cond1_0 i) : out1_B_3 c i a2 h2 a3 h3 a4 h4 a5 h5 hc x0 x1 xo2 xo3 = k1_pay1 (k1_pay6 x1 xo3) := by
  unfold out1_B_3
  rw [View.read_writes_eq_canon _ _ _ fun y => cover1_B_3 (y := y) ..]
  unfold kernelRun1_B
  dsimp only
  sl_unfold_words
  rw [View.canon_unit_zero (S := S1x1x200) zeros3]
  simp only [View.readAt_eq_ld, h3.read_unread, h5.read_unread, View.ld_unit_zero (S := S4096x1) zeros2,
    View.ld_unit_zero (S := S1x1x200) zeros3]

theorem out1_A_2_eq (hc : cond1_0 i) : out1_A_2 c i a2 h2 a3 h3 a4 h4 a5 h5 hc x0 x1 = k1_pay5 x0 x1 k1_pay2 := by
  unfold out1_A_2
  rw [View.read_writes_eq_canon _ _ _ fun y => cover1_A_2 (y := y) ..]
  unfold kernelRun1_A
  dsimp only
  sl_unfold_words
  rw [View.canon_cons_unit_zero (S := S1x200x64) zeros3, View.readCov_unit_zero (S := S1x200x64) _ zeros3]
  simp only [View.readAt_eq_ld, h2.read_unread, h3.read_unread, View.ld_unit_zero (S := S4096x64) zeros2,
    View.ld_unit_zero (S := S4096x1) zeros2]

theorem out1_A_3_eq (hc : cond1_0 i) : out1_A_3 c i a2 h2 a3 h3 a4 h4 a5 h5 hc x0 x1 = k1_pay1 (k1_pay6 x1 k1_pay3) := by
  unfold out1_A_3
  rw [View.read_writes_eq_canon _ _ _ fun y => cover1_A_3 (y := y) ..]
  unfold kernelRun1_A
  dsimp only
  sl_unfold_words
  rw [View.canon_cons_unit_zero (S := S1x1x200) zeros3, View.readCov_unit_zero (S := S1x1x200) _ zeros3]
  simp only [View.readAt_eq_ld, h3.read_unread, View.ld_unit_zero (S := S4096x1) zeros2]

end Pieces

variable (V : (c : Dev nD) → (b : Ref sig .tc) → Buf (Elt Ideal) ((c : Thread nD τ).loc b))

abbrev feat1 (c : Dev nD) : Vec Ideal S524288x64 .f32 := V c main_arg1
abbrev lab1 (c : Dev nD) : Vec Ideal S524288x1 .i32 := V c main_v1
abbrev sumsOut1 (c : Dev nD) : Vec Ideal S2x200x64 .f32 := (dat1 (F := Ideal) V c).arrAt 2 cfg1.N
abbrev cntOut1 (c : Dev nD) : Vec Ideal S2x1x200 .f32 := (dat1 (F := Ideal) V c).arrAt 3 cfg1.N

theorem rows1 : (524288 : ℕ) = 2 * 64 * 4096 := by norm_num

abbrev fblk1 (c : Dev nD) (t : Fin cfg1.N) : Vec Ideal S4096x64 .f32 := iblk1 V c 0 t
abbrev lblk1 (c : Dev nD) (t : Fin cfg1.N) : Vec Ideal S4096x1 .i32 := iblk1 V c 1 t

theorem points1 : cfg1.N = 2 * 64 := N_1

theorem index1 : ∀ t : Fin grid1.N,
    (win1_0.index t 0 = t.val ∧ win1_0.index t 1 = 0) ∧ (win1_1.index t 0 = t.val ∧ win1_1.index t 1 = 0)
    ∧ (win1_2.index t 0 = t.val / 64 ∧ win1_2.index t 1 = 0 ∧ win1_2.index t 2 = 0)
    ∧ (win1_3.index t 0 = t.val / 64 ∧ win1_3.index t 1 = 0 ∧ win1_3.index t 2 = 0) := by
  decide +kernel

theorem row_lt1 (t : Fin cfg1.N) (r : Fin 4096) : t.val * 4096 + r.val < 524288 := by
  have := t.isLt; have := r.isLt; have := points1; omega

theorem fblk1_apply (c : Dev nD) (t : Fin cfg1.N) (r : Fin 4096) (e : Fin 64) :
    fblk1 V c t (ix2 r e) = feat1 V c (ix2 ⟨t.val * 4096 + r.val, row_lt1 t r⟩ e) :=
  congrArg (V c main_arg1) (Shape.idx_ext₂ ((win1_0.rect_emb_val t _ 0).trans (by rw [(index1 t).1.1]; rfl))
    (win1_0.rect_emb_val_of_index_zero t 1 (index1 t).1.2 _))

theorem lblk1_apply (c : Dev nD) (t : Fin cfg1.N) (r : Fin 4096) :
    lblk1 V c t (ix2 r (0 : Fin 1)) = lab1 V c (ix2 ⟨t.val * 4096 + r.val, row_lt1 t r⟩ (0 : Fin 1)) :=
  congrArg (V c main_v1) (Shape.idx_ext₂ ((win1_1.rect_emb_val t _ 0).trans (by rw [(index1 t).2.1.1]; rfl))
    (win1_1.rect_emb_val_of_index_zero t 1 (index1 t).2.1.2 _))

def StatsTileFacts1 : Prop :=
  (∀ i : S1x200x64.Idx, k1_pay2 (F := Ideal) i = 0) ∧ (∀ i : S1x1x200.Idx, k1_pay3 (F := Ideal) i = 0)
  ∧ (∀ (x0 : Vec Ideal S4096x64 .f32) (x1 : Vec Ideal S4096x1 .i32) (acc : Vec Ideal S1x200x64 .f32) (cls : Fin 200) (d : Fin 64),
      k1_pay5 (F := Ideal) x0 x1 acc (ix3 (0 : Fin 1) cls d) = acc (ix3 (0 : Fin 1) cls d) + ∑ t : Fin 4096, if (x1 (ix2 t (0 : Fin 1))).toInt = (cls.val : Int) then Cert.Spec.unitRow (fun e : Fin 64 => x0 (ix2 t e)) d else 0)
  ∧ (∀ (x1 : Vec Ideal S4096x1 .i32) (acc : Vec Ideal S1x1x200 .f32) (cls : Fin 200),
      k1_pay1 (F := Ideal) (k1_pay6 x1 acc) (ix3 (0 : Fin 1) (0 : Fin 1) cls) = acc (ix3 (0 : Fin 1) (0 : Fin 1) cls) + ∑ t : Fin 4096, if (x1 (ix2 t (0 : Fin 1))).toInt = (cls.val : Int) then (1 : EReal) else 0)

-- The rows of tile n whose label is cls, each weighted by w (nothing past the grid).
def tile1 (c : Dev nD) (w : Fin 524288 → EReal) (cls n : ℕ) : EReal :=
  if h : n < cfg1.N then ∑ r : Fin 4096,
    if (lab1 V c (ix2 ⟨n * 4096 + r.val, row_lt1 ⟨n, h⟩ r⟩ (0 : Fin 1))).toInt = (cls : Int) then w ⟨n * 4096 + r.val, row_lt1 ⟨n, h⟩ r⟩ else 0
  else 0

-- The same over the 64 tiles of part p.
def part1 (c : Dev nD) (w : Fin 524288 → EReal) (p : Fin 2) (cls : ℕ) : EReal :=
  ∑ k : Fin 64, ∑ t : Fin 4096,
    if (lab1 V c (ix2 (Cert.Spec.tileRow rows1 p k t) (0 : Fin 1))).toInt = (cls : Int) then w (Cert.Spec.tileRow rows1 p k t) else 0

theorem part_of1 (t : Fin cfg1.N) : t.val / 64 < 2 := by have := t.isLt; have := points1; omega

theorem part1_eq (c : Dev nD) (w : Fin 524288 → EReal) (p : Fin 2) (cls : ℕ) :
    ∑ s ∈ Finset.range 64, tile1 V c w cls (p.val * 64 + s) = part1 V c w p cls := by
  rw [Finset.sum_range]
  exact Finset.sum_congr rfl fun k _ => dif_pos (by have := p.isLt; have := k.isLt; have := points1; omega)

-- The weight of a row in the sum at feature d: its unit row there.
abbrev unit1 (c : Dev nD) (d : Fin 64) (ρ : Fin 524288) : EReal := Cert.Spec.unitRow (fun e : Fin 64 => feat1 V c (ix2 ρ e)) d

theorem pay1_5 (hT : StatsTileFacts1) (c : Dev nD) (t : Fin cfg1.N) (acc : Vec Ideal S1x200x64 .f32) (i : S1x200x64.Idx) :
    k1_pay5 (F := Ideal) (fblk1 V c t) (lblk1 V c t) acc i = acc i + tile1 V c (unit1 V c (i 2)) (i 1).val t.val := by
  have h := hT.2.2.1 (fblk1 V c t) (lblk1 V c t) acc (i 1) (i 2)
  rw [ix3_unit i] at h
  rw [h, tile1, dif_pos t.isLt]
  simp only [fblk1_apply, lblk1_apply]

theorem pay1_1 (hT : StatsTileFacts1) (c : Dev nD) (t : Fin cfg1.N) (acc : Vec Ideal S1x1x200 .f32) (i : S1x1x200.Idx) :
    k1_pay1 (F := Ideal) (k1_pay6 (lblk1 V c t) acc) i = acc i + tile1 V c (fun _ => 1) (i 2).val t.val := by
  have h := hT.2.2.2 (lblk1 V c t) acc (i 2)
  have e := ix3_unit i
  rw [Fin.eq_zero (i 1)] at e
  rw [e] at h
  rw [h, tile1, dif_pos t.isLt]
  simp only [lblk1_apply]

def sumsAll1 (c : Dev nD) : Vec Ideal S2x200x64 .f32 := fun j => part1 V c (unit1 V c (j 2)) (j 0) (j 1).val
def cntAll1 (c : Dev nD) : Vec Ideal S2x1x200 .f32 := fun j => part1 V c (fun _ => 1) (j 0) (j 2).val

theorem emb1_2 (t : Fin cfg1.N) (p : Fin 2) (hp : t.val / 64 = p.val) (y : (win1_2.xblock (grid1.coords t)).Idx) :
    ((cfg1.win 2).blk t).view.emb y = ix3 p ⟨(y 1).val, (y 1).isLt⟩ ⟨(y 2).val, (y 2).isLt⟩ := by
  have hi := (index1 t).2.2.1
  have hy : (y 0).val < 1 := (y 0).isLt
  funext a; apply Fin.ext
  match a with
  | ⟨0, _⟩ => exact (win1_2.rect_emb_val t y 0).trans (by rw [hi.1, hp]; show _ * 1 + (y 0).val = p.val; omega)
  | ⟨1, _⟩ => exact win1_2.rect_emb_val_of_index_zero t 1 hi.2.1 y
  | ⟨2, _⟩ => exact win1_2.rect_emb_val_of_index_zero t 2 hi.2.2 y

theorem emb1_3 (t : Fin cfg1.N) (p : Fin 2) (hp : t.val / 64 = p.val) (y : (win1_3.xblock (grid1.coords t)).Idx) :
    ((cfg1.win 3).blk t).view.emb y = ix3 p ⟨(y 1).val, (y 1).isLt⟩ ⟨(y 2).val, (y 2).isLt⟩ := by
  have hi := (index1 t).2.2.2
  have hy : (y 0).val < 1 := (y 0).isLt
  funext a; apply Fin.ext
  match a with
  | ⟨0, _⟩ => exact (win1_3.rect_emb_val t y 0).trans (by rw [hi.1, hp]; show _ * 1 + (y 0).val = p.val; omega)
  | ⟨1, _⟩ => exact win1_3.rect_emb_val_of_index_zero t 1 hi.2.1 y
  | ⟨2, _⟩ => exact win1_3.rect_emb_val_of_index_zero t 2 hi.2.2 y

theorem flushedSum1 (hT : StatsTileFacts1) (c : Dev nD) (t : Fin cfg1.N) (hf : (cfg1.win 2).flush t = true) :
    (dat1 (F := Ideal) V c).flushed 2 t = ((cfg1.win 2).blk t).view.read (Elt Ideal) (sumsAll1 V c) := by
  funext y
  rw [View.read_apply, emb1_2 t ⟨t.val / 64, part_of1 t⟩ rfl y]
  show (outsAt1 V c t.val t.isLt).1 _ = _
  refine (runSum (fun n h => (outsAt1 V c n h).1) (fun n i => tile1 V c (unit1 V c (i 2)) (i 1).val n) (by decide : 0 < 64)
    ?_ ?_ t.val t.isLt _).trans ?_
  · intro n h h0
    rw [outsAt1_A V c ⟨n, h⟩ h0, out1_A_2_eq]
    exact funext fun i => (pay1_5 V hT c ⟨n, h⟩ _ i).trans (by rw [hT.1 i])
  · intro n h h0
    rw [outsAt1_B V c ⟨n + 1, h⟩ h0, out1_B_2_eq]
    exact funext fun i => pay1_5 V hT c ⟨n + 1, h⟩ _ i
  · rw [(flush1_2 t).mp hf]
    exact part1_eq V c _ ⟨t.val / 64, part_of1 t⟩ _

theorem flushedCnt1 (hT : StatsTileFacts1) (c : Dev nD) (t : Fin cfg1.N) (hf : (cfg1.win 3).flush t = true) :
    (dat1 (F := Ideal) V c).flushed 3 t = ((cfg1.win 3).blk t).view.read (Elt Ideal) (cntAll1 V c) := by
  funext y
  rw [View.read_apply, emb1_3 t ⟨t.val / 64, part_of1 t⟩ rfl y]
  show (outsAt1 V c t.val t.isLt).2 _ = _
  refine (runSum (fun n h => (outsAt1 V c n h).2) (fun n i => tile1 V c (fun _ => 1) (i 2).val n) (by decide : 0 < 64)
    ?_ ?_ t.val t.isLt _).trans ?_
  · intro n h h0
    rw [outsAt1_A V c ⟨n, h⟩ h0, out1_A_3_eq]
    exact funext fun i => (pay1_1 V hT c ⟨n, h⟩ _ i).trans (by rw [hT.2.1 i])
  · intro n h h0
    rw [outsAt1_B V c ⟨n + 1, h⟩ h0, out1_B_3_eq]
    exact funext fun i => pay1_1 V hT c ⟨n + 1, h⟩ _ i
  · rw [(flush1_3 t).mp hf]
    exact part1_eq V c (fun _ => 1) ⟨t.val / 64, part_of1 t⟩ _

-- Each part has a last point.
theorem last1 (p : Fin 2) : ∃ t : Fin cfg1.N, t.val / 64 = p.val ∧ t.val % 64 = 63 :=
  ⟨⟨64 * p.val + 63, by have := p.isLt; have := points1; omega⟩, by show (64 * p.val + 63) / 64 = p.val; omega,
    by show (64 * p.val + 63) % 64 = 63; omega⟩

theorem sumsOut1_apply (hT : StatsTileFacts1) (c : Dev nD) (p : Fin 2) (cls : Fin 200) (d : Fin 64) :
    sumsOut1 V c (ix3 p cls d) = ∑ k : Fin 64, ∑ t : Fin 4096,
      if (lab1 V c (ix2 (Cert.Spec.tileRow rows1 p k t) (0 : Fin 1))).toInt = (cls.val : Int) then Cert.Spec.unitRow (fun e : Fin 64 => feat1 V c (ix2 (Cert.Spec.tileRow rows1 p k t) e)) d else 0 := by
  obtain ⟨t, hp, hl⟩ := last1 p
  have hm := ((cfg1.win 2).blk t).view.emb_mem_set (ix3 0 cls d)
  rw [emb1_2 t p hp] at hm
  exact (dat1 (F := Ideal) V c).arrAt_apply_of_mem 2 (sumsAll1 V c) (flushedSum1 V hT c) _ t _ t.isLt ((flush1_2 t).mpr hl) hm

theorem cntOut1_apply (hT : StatsTileFacts1) (c : Dev nD) (p : Fin 2) (cls : Fin 200) :
    cntOut1 V c (ix3 p (0 : Fin 1) cls) = ∑ k : Fin 64, ∑ t : Fin 4096,
      if (lab1 V c (ix2 (Cert.Spec.tileRow rows1 p k t) (0 : Fin 1))).toInt = (cls.val : Int) then (1 : EReal) else 0 := by
  obtain ⟨t, hp, hl⟩ := last1 p
  have hm := ((cfg1.win 3).blk t).view.emb_mem_set (ix3 0 0 cls)
  rw [emb1_3 t p hp] at hm
  exact (dat1 (F := Ideal) V c).arrAt_apply_of_mem 3 (cntAll1 V c) (flushedCnt1 V hT c) _ t _ t.isLt ((flush1_3 t).mpr hl) hm

end Cert.KernelIdeal.KV
-- ==== Proof.KV.LossAcc.lean ====
import proofs.«419305_j85452669321568_1_alg».proof.Proof.Gen.KernelIdeal.Frame
import proofs.«419305_j85452669321568_1_alg».proof.Proof.Math.Spec
import proofs.«419305_j85452669321568_1_alg».proof.Proof.KV.RunSum

noncomputable section

open Idealize.ShloMosaic Idealize.ShloMosaic.TcCoe Idealize.SL.Sem Idealize.ShloMosaic.ValueIdx
open Idealize.ShloMosaic.Pipeline (Dat)
open scoped BigOperators

namespace Cert.KernelIdeal.KV

open Cert.KernelIdeal Cert.KernelIdeal.Gen

section Pieces

variable {F : FTy → Type} [FloatOps F] (c : Dev nD) (i : grid2.Coords)
  (arg2 : Memref sig .tc .vmem S2048x64 .f32) (harg2 : arg2.IsWhole) (arg3 : Memref sig .tc .vmem S2048x1 .i32) (harg3 : arg3.IsWhole)
  (arg4 : Memref sig .tc .vmem S64x50 .f32) (harg4 : arg4.IsWhole) (arg5 : Memref sig .tc .vmem S1x1x1 .f32) (harg5 : arg5.IsWhole)
  (x0 : Vec F S2048x64 .f32) (x1 : Vec F S2048x1 .i32) (x2 : Vec F S64x50 .f32)

theorem zoff3_r2 : (![0, 0, 0] : Fin 3 → Nat) = fun _ => 0 := funext fun a => by fin_cases a <;> rfl
theorem zoff2_r2 : (![0, 0] : Fin 2 → Nat) = fun _ => 0 := funext fun a => by fin_cases a <;> rfl

/-- A tile that is not its part's first adds its sum to the entry it finds. -/
theorem piece_B_r2 (hc0 : ¬cond2_0 i) (xo3 : Vec F S1x1x1 .f32) :
    out2_B_3 c i arg2 harg2 arg3 harg3 arg4 harg4 arg5 harg5 hc0 x0 x1 x2 xo3 = k2_pay1 (k2_pay3 x0 x2 x1) xo3 := by
  unfold out2_B_3
  rw [View.read_writes_eq_canon _ _ _ fun _ => cover2_B_3 ..]
  unfold kernelRun2_B
  dsimp only
  sl_unfold_words
  rw [View.canon_unit_zero zoff3_r2]
  simp only [View.readAt_eq_ld, harg2.read_unread, harg3.read_unread, harg4.read_unread, harg5.read_unread,
    View.ld_unit_zero (S := S1x1x1) zoff3_r2, View.ld_unit_zero (S := S2048x64) zoff2_r2,
    View.ld_unit_zero (S := S2048x1) zoff2_r2, View.ld_unit_zero (S := S64x50) zoff2_r2]

/-- A part's first tile adds its sum to a zero entry. -/
theorem piece_A_r2 (hc0 : cond2_0 i) :
    out2_A_3 c i arg2 harg2 arg3 harg3 arg4 harg4 arg5 harg5 hc0 x0 x1 x2 = k2_pay1 (k2_pay3 x0 x2 x1) (k2_pay2 (F := F)) := by
  unfold out2_A_3
  rw [View.read_writes_eq_canon _ _ _ fun _ => cover2_A_3 ..]
  unfold kernelRun2_A
  dsimp only
  sl_unfold_words
  rw [View.canon_cons_unit_zero (S := S1x1x1) zoff3_r2, View.readCov_unit_zero (S := S1x1x1) _ zoff3_r2]
  simp only [View.readAt_eq_ld, harg2.read_unread, harg3.read_unread, harg4.read_unread,
    View.ld_unit_zero (S := S2048x64) zoff2_r2, View.ld_unit_zero (S := S2048x1) zoff2_r2,
    View.ld_unit_zero (S := S64x50) zoff2_r2]

end Pieces

variable (V : (c : Dev nD) → (b : Ref sig .tc) → Buf (Elt Ideal) ((c : Thread nD τ).loc b))

abbrev feat2 (c : Dev nD) : Vec Ideal S65536x64 .f32 := V c main_arg0
abbrev lab2 (c : Dev nD) : Vec Ideal S65536x1 .i32 := V c main_v0
abbrev protoT2 (c : Dev nD) : Vec Ideal S64x50 .f32 := V c main_v58
abbrev lossOut2 (c : Dev nD) : Vec Ideal S2x1x1 .f32 := (dat2 (F := Ideal) V c).arrAt 3 cfg2.N

theorem rows2 : (65536 : ℕ) = 2 * 16 * 2048 := by norm_num

def LossTileFacts : Prop :=
  (∀ i : S1x1x1.Idx, k2_pay2 (F := Ideal) i = 0)
  ∧ (∀ (v40 : FVec Ideal S1x1 .f32) (acc : Vec Ideal S1x1x1 .f32), k2_pay1 (F := Ideal) v40 acc (ix3 (0 : Fin 1) (0 : Fin 1) (0 : Fin 1)) = acc (ix3 (0 : Fin 1) (0 : Fin 1) (0 : Fin 1)) + v40 (ix2 (0 : Fin 1) (0 : Fin 1)))
  ∧ (∀ (x0 : Vec Ideal S2048x64 .f32) (pt : Vec Ideal S64x50 .f32) (x1 : Vec Ideal S2048x1 .i32),
      k2_pay3 (F := Ideal) x0 pt x1 (ix2 (0 : Fin 1) (0 : Fin 1)) = ∑ t : Fin 2048, Cert.Spec.rowLoss (Cert.Spec.logit (fun e : Fin 64 => x0 (ix2 t e)) (fun (cl : Fin 50) (e : Fin 64) => pt (ix2 e cl))) (x1 (ix2 t (0 : Fin 1))))

abbrev fblk_r2 (c : Dev nD) (t : Fin cfg2.N) : Vec Ideal S2048x64 .f32 := iblk2 (F := Ideal) V c 0 t
abbrev lblk_r2 (c : Dev nD) (t : Fin cfg2.N) : Vec Ideal S2048x1 .i32 := iblk2 (F := Ideal) V c 1 t
abbrev pblk_r2 (c : Dev nD) (t : Fin cfg2.N) : Vec Ideal S64x50 .f32 := iblk2 (F := Ideal) V c 2 t

theorem ptLt_r2 (t : Fin cfg2.N) : t.val < 32 := lt_of_lt_of_eq t.isLt N_2

theorem widx_r2 : ∀ t : Fin grid2.N, (win2_0.index t 0 = t.val ∧ win2_0.index t 1 = 0) ∧ (win2_1.index t 0 = t.val ∧ win2_1.index t 1 = 0)
    ∧ (win2_2.index t 0 = 0 ∧ win2_2.index t 1 = 0) ∧ win2_3.index t 0 = t.val / 16 ∧ win2_3.index t 1 = 0 ∧ win2_3.index t 2 = 0 := by
  decide +kernel

/-- The loss of row `m`. -/
def rl_r2 (c : Dev nD) (m : Fin 65536) : EReal :=
  Cert.Spec.rowLoss (Cert.Spec.logit (fun e : Fin 64 => feat2 V c (ix2 m e)) (fun (cl : Fin 50) (e : Fin 64) => protoT2 V c (ix2 e cl))) (lab2 V c (ix2 m (0 : Fin 1)))

/-- The losses of the rows of tile `n`, added up; zero past the last tile, so that sums over runs of tiles need no bounds. -/
def tl_r2 (c : Dev nD) (n : ℕ) : EReal := if h : n < 32 then ∑ r : Fin 2048, rl_r2 V c ⟨n * 2048 + r.val, by omega⟩ else 0

theorem fblk_apply_r2 (c : Dev nD) (t : Fin cfg2.N) (r : Fin 2048) (e : Fin 64) :
    fblk_r2 V c t (ix2 r e) = feat2 V c (ix2 ⟨t.val * 2048 + r.val, by have := ptLt_r2 t; omega⟩ e) := by
  unfold fblk_r2 iblk2
  rw [View.read_apply]
  exact congrArg (V c main_arg0) (Shape.idx_ext₂
    (by show win2_0.index t 0 * 2048 + 1 * r.val = t.val * 2048 + r.val; rw [(widx_r2 t).1.1]; omega)
    (by show win2_0.index t 1 * 64 + 1 * e.val = e.val; rw [(widx_r2 t).1.2]; omega))

theorem lblk_apply_r2 (c : Dev nD) (t : Fin cfg2.N) (r : Fin 2048) :
    lblk_r2 V c t (ix2 r (0 : Fin 1)) = lab2 V c (ix2 ⟨t.val * 2048 + r.val, by have := ptLt_r2 t; omega⟩ (0 : Fin 1)) := by
  unfold lblk_r2 iblk2
  rw [View.read_apply]
  exact congrArg (V c main_v0) (Shape.idx_ext₂
    (by show win2_1.index t 0 * 2048 + 1 * r.val = t.val * 2048 + r.val; rw [(widx_r2 t).2.1.1]; omega)
    (by show win2_1.index t 1 * 1 + 1 * 0 = 0; rw [(widx_r2 t).2.1.2]))

theorem pblk_eq_r2 (c : Dev nD) (t : Fin cfg2.N) : pblk_r2 V c t = protoT2 V c := funext fun j => by
  unfold pblk_r2 iblk2
  rw [View.read_apply]
  exact congrArg (V c main_v58) (Shape.idx_ext₂
    (by show win2_2.index t 0 * 64 + 1 * (j 0).val = (j 0).val; rw [(widx_r2 t).2.2.1.1]; omega)
    (by show win2_2.index t 1 * 50 + 1 * (j 1).val = (j 1).val; rw [(widx_r2 t).2.2.1.2]; omega))

/-- On the blocks of point `t` the body's sum is tile `t`'s. -/
theorem tile_eq_r2 (hT : LossTileFacts) (c : Dev nD) (t : Fin cfg2.N) :
    k2_pay3 (F := Ideal) (fblk_r2 V c t) (pblk_r2 V c t) (lblk_r2 V c t) (ix2 (0 : Fin 1) (0 : Fin 1)) = tl_r2 V c t.val := by
  rw [hT.2.2, tl_r2, dif_pos (ptLt_r2 t), pblk_eq_r2 V c t]
  unfold rl_r2
  exact Finset.sum_congr rfl fun r _ => by rw [lblk_apply_r2 V c t r, funext (fblk_apply_r2 V c t r)]

theorem idx111_r2 (z : S1x1x1.Idx) : z = ix3 (0 : Fin 1) (0 : Fin 1) (0 : Fin 1) :=
  funext fun a => match a with
    | ⟨0, _⟩ | ⟨1, _⟩ | ⟨2, _⟩ => Subsingleton.elim (α := Fin 1) _ _

/-- After point `n` the entry holds the sums of the tiles of `n`'s part up to tile `n`: it restarts at a part's first tile and adds a tile's sum at every other. -/
theorem acc_eq_r2 (hT : LossTileFacts) (c : Dev nD) (n : ℕ) (h : n < cfg2.N) (i : S1x1x1.Idx) :
    outsAt2 (F := Ideal) V c n h i = ∑ s ∈ Finset.range (n % 16 + 1), tl_r2 V c (n / 16 * 16 + s) := by
  refine runSum (outsAt2 V c) (fun n _ => tl_r2 V c n) (by norm_num) (fun n h e => funext fun j => ?_) (fun n h e => funext fun j => ?_) n h i
  · rw [idx111_r2 j]
    refine (congrFun (outsAt2_A V c ⟨n, h⟩ e) _).trans ?_
    rw [piece_A_r2, hT.2.1, hT.1]
    exact congrArg (0 + ·) (tile_eq_r2 V hT c ⟨n, h⟩)
  · rw [idx111_r2 j]
    refine (congrFun (outsAt2_B V c ⟨n + 1, h⟩ e) _).trans ?_
    rw [piece_B_r2, hT.2.1]
    exact congrArg (_ + ·) (tile_eq_r2 V hT c ⟨n + 1, h⟩)

/-- The tile sums of part `p` are its rows' losses, tile by tile. -/
theorem sum_tiles_r2 (c : Dev nD) (p : Fin 2) :
    ∑ s ∈ Finset.range 16, tl_r2 V c (p.val * 16 + s) = ∑ k : Fin 16, ∑ t : Fin 2048, rl_r2 V c (Cert.Spec.tileRow rows2 p k t) := by
  rw [Finset.sum_range]
  refine Finset.sum_congr rfl fun k _ => ?_
  have hk : p.val * 16 + k.val < 32 := by omega
  rw [tl_r2, dif_pos hk]
  rfl

abbrev lossG_r2 (c : Dev nD) : Vec Ideal S2x1x1 .f32 := fun i => ∑ k : Fin 16, ∑ t : Fin 2048, rl_r2 V c (Cert.Spec.tileRow rows2 (i 0) k t)

/-- The one entry of the result's block at a point of part `p` is entry `p`. -/
theorem emb3_r2 (t : Fin cfg2.N) (p : Fin 2) (hp : t.val / 16 = p.val) (y : ((cfg2.win 3).xblock (cfg2.grid.coords t)).Idx) :
    ((cfg2.win 3).blk t).view.emb y = ix3 p (0 : Fin 1) (0 : Fin 1) := by
  have hw := (widx_r2 t).2.2.2
  funext a
  apply Fin.ext
  match a with
  | ⟨0, _⟩ => show win2_3.index t 0 * 1 + 1 * (y 0).val = p.val; have hy : (y 0).val < 1 := (y 0).isLt; rw [hw.1]; omega
  | ⟨1, _⟩ => show win2_3.index t 1 * 1 + 1 * (y 1).val = 0; have hy : (y 1).val < 1 := (y 1).isLt; rw [hw.2.1]; omega
  | ⟨2, _⟩ => show win2_3.index t 2 * 1 + 1 * (y 2).val = 0; have hy : (y 2).val < 1 := (y 2).isLt; rw [hw.2.2]; omega

theorem flushed_eq_r2 (hT : LossTileFacts) (c : Dev nD) (t : Fin cfg2.N) (hf : (cfg2.win 3).flush t = true) :
    (dat2 (F := Ideal) V c).flushed 3 t = ((cfg2.win 3).blk t).view.read (Elt Ideal) (lossG_r2 V c) := funext fun y => by
  have hlt := ptLt_r2 t
  show (dat2 (F := Ideal) V c).after 3 t (win2_3.xinj (grid2.coords t) y) = _
  rw [after2_3, View.read_apply]
  show outsAt2 (F := Ideal) V c t.val t.isLt _ = lossG_r2 V c (((cfg2.win 3).blk t).view.emb y)
  rw [acc_eq_r2 V hT c, (flush2_3 t).mp hf, emb3_r2 t ⟨t.val / 16, by omega⟩ rfl y]
  exact sum_tiles_r2 V c ⟨t.val / 16, by omega⟩

theorem lossOut2_apply (hT : LossTileFacts) (c : Dev nD) (p : Fin 2) :
    lossOut2 V c (ix3 p (0 : Fin 1) (0 : Fin 1)) = ∑ k : Fin 16, ∑ t : Fin 2048,
      Cert.Spec.rowLoss (Cert.Spec.logit (fun e : Fin 64 => feat2 V c (ix2 (Cert.Spec.tileRow rows2 p k t) e)) (fun (cl : Fin 50) (e : Fin 64) => protoT2 V c (ix2 e cl))) (lab2 V c (ix2 (Cert.Spec.tileRow rows2 p k t) (0 : Fin 1))) := by
  have hN : cfg2.N = 32 := N_2
  have ht : 16 * p.val + 15 < cfg2.N := by omega
  have h := (dat2 (F := Ideal) V c).arrAt_apply_of_mem 3 (lossG_r2 V c) (flushed_eq_r2 V hT c) cfg2.N ⟨_, ht⟩ _ ht
    ((flush2_3 _).mpr (by show (16 * p.val + 15) % 16 = 15; omega))
    (((cfg2.win 3).blk ⟨_, ht⟩).view.emb_mem_set (ix3 (0 : Fin 1) (0 : Fin 1) (0 : Fin 1) : S1x1x1.Idx))
  rw [emb3_r2 ⟨_, ht⟩ p (by show (16 * p.val + 15) / 16 = p.val; omega)] at h
  exact h

end Cert.KernelIdeal.KV
-- ==== Proof.KV.LossAcc3.lean ====
import proofs.«419305_j85452669321568_1_alg».proof.Proof.Gen.KernelIdeal.Frame
import proofs.«419305_j85452669321568_1_alg».proof.Proof.Math.Spec
import proofs.«419305_j85452669321568_1_alg».proof.Proof.KV.RunSum

noncomputable section

open Idealize.ShloMosaic Idealize.ShloMosaic.TcCoe Idealize.SL.Sem Idealize.ShloMosaic.ValueIdx
open Idealize.ShloMosaic.Pipeline (Dat)
open scoped BigOperators

namespace Cert.KernelIdeal.KV

open Cert.KernelIdeal Cert.KernelIdeal.Gen

section Pieces

variable {F : FTy → Type} [FloatOps F] (c : Dev nD) (i : grid3.Coords)
  (arg2 : Memref sig .tc .vmem S4096x64 .f32) (harg2 : arg2.IsWhole) (arg3 : Memref sig .tc .vmem S4096x1 .i32) (harg3 : arg3.IsWhole)
  (arg4 : Memref sig .tc .vmem S64x200 .f32) (harg4 : arg4.IsWhole) (arg5 : Memref sig .tc .vmem S1x1x1 .f32) (harg5 : arg5.IsWhole)
  (x0 : Vec F S4096x64 .f32) (x1 : Vec F S4096x1 .i32) (x2 : Vec F S64x200 .f32)

theorem zoff3_r3 : (![0, 0, 0] : Fin 3 → Nat) = fun _ => 0 := funext fun a => by fin_cases a <;> rfl
theorem zoff2_r3 : (![0, 0] : Fin 2 → Nat) = fun _ => 0 := funext fun a => by fin_cases a <;> rfl

/-- A tile that is not its part's first adds its sum to the entry it finds. -/
theorem piece_B_r3 (hc0 : ¬cond3_0 i) (xo3 : Vec F S1x1x1 .f32) :
    out3_B_3 c i arg2 harg2 arg3 harg3 arg4 harg4 arg5 harg5 hc0 x0 x1 x2 xo3 = k3_pay1 (k3_pay3 x0 x2 x1) xo3 := by
  unfold out3_B_3
  rw [View.read_writes_eq_canon _ _ _ fun _ => cover3_B_3 ..]
  unfold kernelRun3_B
  dsimp only
  sl_unfold_words
  rw [View.canon_unit_zero zoff3_r3]
  simp only [View.readAt_eq_ld, harg2.read_unread, harg3.read_unread, harg4.read_unread, harg5.read_unread,
    View.ld_unit_zero (S := S1x1x1) zoff3_r3, View.ld_unit_zero (S := S4096x64) zoff2_r3,
    View.ld_unit_zero (S := S4096x1) zoff2_r3, View.ld_unit_zero (S := S64x200) zoff2_r3]

/-- A part's first tile adds its sum to a zero entry. -/
theorem piece_A_r3 (hc0 : cond3_0 i) :
    out3_A_3 c i arg2 harg2 arg3 harg3 arg4 harg4 arg5 harg5 hc0 x0 x1 x2 = k3_pay1 (k3_pay3 x0 x2 x1) (k3_pay2 (F := F)) := by
  unfold out3_A_3
  rw [View.read_writes_eq_canon _ _ _ fun _ => cover3_A_3 ..]
  unfold kernelRun3_A
  dsimp only
  sl_unfold_words
  rw [View.canon_cons_unit_zero (S := S1x1x1) zoff3_r3, View.readCov_unit_zero (S := S1x1x1) _ zoff3_r3]
  simp only [View.readAt_eq_ld, harg2.read_unread, harg3.read_unread, harg4.read_unread,
    View.ld_unit_zero (S := S4096x64) zoff2_r3, View.ld_unit_zero (S := S4096x1) zoff2_r3,
    View.ld_unit_zero (S := S64x200) zoff2_r3]

end Pieces

variable (V : (c : Dev nD) → (b : Ref sig .tc) → Buf (Elt Ideal) ((c : Thread nD τ).loc b))

abbrev feat3 (c : Dev nD) : Vec Ideal S524288x64 .f32 := V c main_arg1
abbrev lab3 (c : Dev nD) : Vec Ideal S524288x1 .i32 := V c main_v1
abbrev protoT3 (c : Dev nD) : Vec Ideal S64x200 .f32 := V c main_v62
abbrev lossOut3 (c : Dev nD) : Vec Ideal S2x1x1 .f32 := (dat3 (F := Ideal) V c).arrAt 3 cfg3.N

theorem rows3 : (524288 : ℕ) = 2 * 64 * 4096 := by norm_num

def LossTileFacts3 : Prop :=
  (∀ i : S1x1x1.Idx, k3_pay2 (F := Ideal) i = 0)
  ∧ (∀ (v40 : FVec Ideal S1x1 .f32) (acc : Vec Ideal S1x1x1 .f32), k3_pay1 (F := Ideal) v40 acc (ix3 (0 : Fin 1) (0 : Fin 1) (0 : Fin 1)) = acc (ix3 (0 : Fin 1) (0 : Fin 1) (0 : Fin 1)) + v40 (ix2 (0 : Fin 1) (0 : Fin 1)))
  ∧ (∀ (x0 : Vec Ideal S4096x64 .f32) (pt : Vec Ideal S64x200 .f32) (x1 : Vec Ideal S4096x1 .i32),
      k3_pay3 (F := Ideal) x0 pt x1 (ix2 (0 : Fin 1) (0 : Fin 1)) = ∑ t : Fin 4096, Cert.Spec.rowLoss (Cert.Spec.logit (fun e : Fin 64 => x0 (ix2 t e)) (fun (cl : Fin 200) (e : Fin 64) => pt (ix2 e cl))) (x1 (ix2 t (0 : Fin 1))))

abbrev fblk_r3 (c : Dev nD) (t : Fin cfg3.N) : Vec Ideal S4096x64 .f32 := iblk3 (F := Ideal) V c 0 t
abbrev lblk_r3 (c : Dev nD) (t : Fin cfg3.N) : Vec Ideal S4096x1 .i32 := iblk3 (F := Ideal) V c 1 t
abbrev pblk_r3 (c : Dev nD) (t : Fin cfg3.N) : Vec Ideal S64x200 .f32 := iblk3 (F := Ideal) V c 2 t

theorem ptLt_r3 (t : Fin cfg3.N) : t.val < 128 := lt_of_lt_of_eq t.isLt N_3

theorem widx_r3 : ∀ t : Fin grid3.N, (win3_0.index t 0 = t.val ∧ win3_0.index t 1 = 0) ∧ (win3_1.index t 0 = t.val ∧ win3_1.index t 1 = 0)
    ∧ (win3_2.index t 0 = 0 ∧ win3_2.index t 1 = 0) ∧ win3_3.index t 0 = t.val / 64 ∧ win3_3.index t 1 = 0 ∧ win3_3.index t 2 = 0 := by
  decide +kernel

/-- The loss of row `m`. -/
def rl_r3 (c : Dev nD) (m : Fin 524288) : EReal :=
  Cert.Spec.rowLoss (Cert.Spec.logit (fun e : Fin 64 => feat3 V c (ix2 m e)) (fun (cl : Fin 200) (e : Fin 64) => protoT3 V c (ix2 e cl))) (lab3 V c (ix2 m (0 : Fin 1)))

/-- The losses of the rows of tile `n`, added up; zero past the last tile, so that sums over runs of tiles need no bounds. -/
def tl_r3 (c : Dev nD) (n : ℕ) : EReal := if h : n < 128 then ∑ r : Fin 4096, rl_r3 V c ⟨n * 4096 + r.val, by omega⟩ else 0

theorem fblk_apply_r3 (c : Dev nD) (t : Fin cfg3.N) (r : Fin 4096) (e : Fin 64) :
    fblk_r3 V c t (ix2 r e) = feat3 V c (ix2 ⟨t.val * 4096 + r.val, by have := ptLt_r3 t; omega⟩ e) := by
  unfold fblk_r3 iblk3
  rw [View.read_apply]
  exact congrArg (V c main_arg1) (Shape.idx_ext₂
    (by show win3_0.index t 0 * 4096 + 1 * r.val = t.val * 4096 + r.val; rw [(widx_r3 t).1.1]; omega)
    (by show win3_0.index t 1 * 64 + 1 * e.val = e.val; rw [(widx_r3 t).1.2]; omega))

theorem lblk_apply_r3 (c : Dev nD) (t : Fin cfg3.N) (r : Fin 4096) :
    lblk_r3 V c t (ix2 r (0 : Fin 1)) = lab3 V c (ix2 ⟨t.val * 4096 + r.val, by have := ptLt_r3 t; omega⟩ (0 : Fin 1)) := by
  unfold lblk_r3 iblk3
  rw [View.read_apply]
  exact congrArg (V c main_v1) (Shape.idx_ext₂
    (by show win3_1.index t 0 * 4096 + 1 * r.val = t.val * 4096 + r.val; rw [(widx_r3 t).2.1.1]; omega)
    (by show win3_1.index t 1 * 1 + 1 * 0 = 0; rw [(widx_r3 t).2.1.2]))

theorem pblk_eq_r3 (c : Dev nD) (t : Fin cfg3.N) : pblk_r3 V c t = protoT3 V c := funext fun j => by
  unfold pblk_r3 iblk3
  rw [View.read_apply]
  exact congrArg (V c main_v62) (Shape.idx_ext₂
    (by show win3_2.index t 0 * 64 + 1 * (j 0).val = (j 0).val; rw [(widx_r3 t).2.2.1.1]; omega)
    (by show win3_2.index t 1 * 200 + 1 * (j 1).val = (j 1).val; rw [(widx_r3 t).2.2.1.2]; omega))

/-- On the blocks of point `t` the body's sum is tile `t`'s. -/
theorem tile_eq_r3 (hT : LossTileFacts3) (c : Dev nD) (t : Fin cfg3.N) :
    k3_pay3 (F := Ideal) (fblk_r3 V c t) (pblk_r3 V c t) (lblk_r3 V c t) (ix2 (0 : Fin 1) (0 : Fin 1)) = tl_r3 V c t.val := by
  rw [hT.2.2, tl_r3, dif_pos (ptLt_r3 t), pblk_eq_r3 V c t]
  unfold rl_r3
  exact Finset.sum_congr rfl fun r _ => by rw [lblk_apply_r3 V c t r, funext (fblk_apply_r3 V c t r)]

theorem idx111_r3 (z : S1x1x1.Idx) : z = ix3 (0 : Fin 1) (0 : Fin 1) (0 : Fin 1) :=
  funext fun a => match a with
    | ⟨0, _⟩ | ⟨1, _⟩ | ⟨2, _⟩ => Subsingleton.elim (α := Fin 1) _ _

/-- After point `n` the entry holds the sums of the tiles of `n`'s part up to tile `n`: it restarts at a part's first tile and adds a tile's sum at every other. -/
theorem acc_eq_r3 (hT : LossTileFacts3) (c : Dev nD) (n : ℕ) (h : n < cfg3.N) (i : S1x1x1.Idx) :
    outsAt3 (F := Ideal) V c n h i = ∑ s ∈ Finset.range (n % 64 + 1), tl_r3 V c (n / 64 * 64 + s) := by
  refine runSum (outsAt3 V c) (fun n _ => tl_r3 V c n) (by norm_num) (fun n h e => funext fun j => ?_) (fun n h e => funext fun j => ?_) n h i
  · rw [idx111_r3 j]
    refine (congrFun (outsAt3_A V c ⟨n, h⟩ e) _).trans ?_
    rw [piece_A_r3, hT.2.1, hT.1]
    exact congrArg (0 + ·) (tile_eq_r3 V hT c ⟨n, h⟩)
  · rw [idx111_r3 j]
    refine (congrFun (outsAt3_B V c ⟨n + 1, h⟩ e) _).trans ?_
    rw [piece_B_r3, hT.2.1]
    exact congrArg (_ + ·) (tile_eq_r3 V hT c ⟨n + 1, h⟩)

/-- The tile sums of part `p` are its rows' losses, tile by tile. -/
theorem sum_tiles_r3 (c : Dev nD) (p : Fin 2) :
    ∑ s ∈ Finset.range 64, tl_r3 V c (p.val * 64 + s) = ∑ k : Fin 64, ∑ t : Fin 4096, rl_r3 V c (Cert.Spec.tileRow rows3 p k t) := by
  rw [Finset.sum_range]
  refine Finset.sum_congr rfl fun k _ => ?_
  have hk : p.val * 64 + k.val < 128 := by omega
  rw [tl_r3, dif_pos hk]
  rfl

abbrev lossG_r3 (c : Dev nD) : Vec Ideal S2x1x1 .f32 := fun i => ∑ k : Fin 64, ∑ t : Fin 4096, rl_r3 V c (Cert.Spec.tileRow rows3 (i 0) k t)

/-- The one entry of the result's block at a point of part `p` is entry `p`. -/
theorem emb3_r3 (t : Fin cfg3.N) (p : Fin 2) (hp : t.val / 64 = p.val) (y : ((cfg3.win 3).xblock (cfg3.grid.coords t)).Idx) :
    ((cfg3.win 3).blk t).view.emb y = ix3 p (0 : Fin 1) (0 : Fin 1) := by
  have hw := (widx_r3 t).2.2.2
  funext a
  apply Fin.ext
  match a with
  | ⟨0, _⟩ => show win3_3.index t 0 * 1 + 1 * (y 0).val = p.val; have hy : (y 0).val < 1 := (y 0).isLt; rw [hw.1]; omega
  | ⟨1, _⟩ => show win3_3.index t 1 * 1 + 1 * (y 1).val = 0; have hy : (y 1).val < 1 := (y 1).isLt; rw [hw.2.1]; omega
  | ⟨2, _⟩ => show win3_3.index t 2 * 1 + 1 * (y 2).val = 0; have hy : (y 2).val < 1 := (y 2).isLt; rw [hw.2.2]; omega

theorem flushed_eq_r3 (hT : LossTileFacts3) (c : Dev nD) (t : Fin cfg3.N) (hf : (cfg3.win 3).flush t = true) :
    (dat3 (F := Ideal) V c).flushed 3 t = ((cfg3.win 3).blk t).view.read (Elt Ideal) (lossG_r3 V c) := funext fun y => by
  have hlt := ptLt_r3 t
  show (dat3 (F := Ideal) V c).after 3 t (win3_3.xinj (grid3.coords t) y) = _
  rw [after3_3, View.read_apply]
  show outsAt3 (F := Ideal) V c t.val t.isLt _ = lossG_r3 V c (((cfg3.win 3).blk t).view.emb y)
  rw [acc_eq_r3 V hT c, (flush3_3 t).mp hf, emb3_r3 t ⟨t.val / 64, by omega⟩ rfl y]
  exact sum_tiles_r3 V c ⟨t.val / 64, by omega⟩

theorem lossOut3_apply (hT : LossTileFacts3) (c : Dev nD) (p : Fin 2) :
    lossOut3 V c (ix3 p (0 : Fin 1) (0 : Fin 1)) = ∑ k : Fin 64, ∑ t : Fin 4096,
      Cert.Spec.rowLoss (Cert.Spec.logit (fun e : Fin 64 => feat3 V c (ix2 (Cert.Spec.tileRow rows3 p k t) e)) (fun (cl : Fin 200) (e : Fin 64) => protoT3 V c (ix2 e cl))) (lab3 V c (ix2 (Cert.Spec.tileRow rows3 p k t) (0 : Fin 1))) := by
  have hN : cfg3.N = 128 := N_3
  have ht : 64 * p.val + 63 < cfg3.N := by omega
  have h := (dat3 (F := Ideal) V c).arrAt_apply_of_mem 3 (lossG_r3 V c) (flushed_eq_r3 V hT c) cfg3.N ⟨_, ht⟩ _ ht
    ((flush3_3 _).mpr (by show (64 * p.val + 63) % 64 = 63; omega))
    (((cfg3.win 3).blk ⟨_, ht⟩).view.emb_mem_set (ix3 (0 : Fin 1) (0 : Fin 1) (0 : Fin 1) : S1x1x1.Idx))
  rw [emb3_r3 ⟨_, ht⟩ p (by show (64 * p.val + 63) / 64 = p.val; omega)] at h
  exact h

end Cert.KernelIdeal.KV
-- ==== Proof.Math.Tiles.lean ====
import Mathlib.Logic.Equiv.Fin.Basic
import Mathlib.Algebra.BigOperators.Group.Finset.Basic
import Mathlib.Data.Fintype.BigOperators
import Mathlib.Tactic.Ring
import proofs.«419305_j85452669321568_1_alg».proof.Proof.Math.Spec

open scoped BigOperators
open Idealize.ShloMosaic Idealize.ShloMosaic.ValueIdx

namespace Cert.Spec

/-- Every `r < P * K * T` is `(p * K + k) * T + t` for exactly one `p < P`, `k < K`, `t < T` (division with remainder, twice). -/
theorem sum_fin_tiles {M : Type*} [AddCommMonoid M] {N : ℕ} (P K T : ℕ) (hN : N = P * K * T) (g : Fin N → M) :
    ∑ r : Fin N, g r = ∑ p : Fin P, ∑ k : Fin K, ∑ t : Fin T, g (tileRow hN p k t) := by
  subst hN
  rw [← finProdFinEquiv.sum_comp, Fintype.sum_prod_type, ← finProdFinEquiv.sum_comp, Fintype.sum_prod_type]
  refine Fintype.sum_congr _ _ fun p => Fintype.sum_congr _ _ fun k => Fintype.sum_congr _ _ fun t => congrArg g (Fin.ext ?_)
  rw [tileRow_val, finProdFinEquiv_apply_val, finProdFinEquiv_apply_val]
  ring

/-- An `[n, 1, 1]` array has one entry for each value of its first coordinate. -/
theorem sum_idxN11 {M : Type*} [AddCommMonoid M] (n : ℕ) (f : (⟨3, ![n, 1, 1]⟩ : Shape).Idx → M) :
    ∑ j, f j = ∑ p : Fin n, f (ix3 p (0 : Fin 1) (0 : Fin 1)) :=
  (Fintype.sum_bijective (fun p : Fin n => ix3 p (0 : Fin 1) (0 : Fin 1)) ⟨fun _ _ h => congrFun h 0, fun j => ⟨j 0, funext fun a =>
    match a with | ⟨0, _⟩ => rfl | ⟨1, _⟩ | ⟨2, _⟩ => Subsingleton.elim (α := Fin 1) _ _⟩⟩ _ _ fun _ => rfl).symm

end Cert.Spec
-- ==== Proof.Math.Literals.lean ====
import Idealize.ShloMosaic.PureOps.Ideal
import proofs.«419305_j85452669321568_1_alg».proof.Proof.Math.Spec

noncomputable section

namespace Cert.Spec

open Idealize.ShloMosaic

-- The words of 1, 1/2, 2^16, 2^19 and the two infinities, read off once each.
theorem ofBits_one : Ideal.ofBits .f32 0x3F800000#32 = (1 : EReal) := by
  simp [Ideal.ofBits, Ideal.ieee, -EReal.coe_mul]
  norm_num

theorem ofBits_half : Ideal.ofBits .f32 0x3F000000#32 = ((1/2 : ℝ) : EReal) := by
  simp [Ideal.ofBits, Ideal.ieee, -EReal.coe_mul]
  norm_num

theorem ofBits_65536 : Ideal.ofBits .f32 0x47800000#32 = ((65536 : ℝ) : EReal) := by
  simp [Ideal.ofBits, Ideal.ieee, -EReal.coe_mul]
  norm_num

theorem ofBits_524288 : Ideal.ofBits .f32 0x49000000#32 = ((524288 : ℝ) : EReal) := by
  simp [Ideal.ofBits, Ideal.ieee, -EReal.coe_mul]
  norm_num

theorem ofBits_neg_inf : Ideal.ofBits .f32 0xFF800000#32 = (⊥ : EReal) := by
  simp [Ideal.ofBits, Ideal.ieee]

theorem ofBits_pos_inf : Ideal.ofBits .f32 0x7F800000#32 = (⊤ : EReal) := by
  simp [Ideal.ofBits, Ideal.ieee]

-- eps and temp are positive reals: both words are normal and positive.
theorem eps_eq : eps = (((2 ^ 23 + 834764 : ℕ) : ℝ) * (2 : ℝ) ^ (-63 : ℤ) : ℝ) := by
  simp [eps, Ideal.ofBits, Ideal.ieee, -EReal.coe_mul]

theorem temp_eq : temp = (((2 ^ 23 + 1677722 : ℕ) : ℝ) * (2 : ℝ) ^ (-25 : ℤ) : ℝ) := by
  simp [temp, Ideal.ofBits, Ideal.ieee, -EReal.coe_mul]

theorem eps_pos : 0 < eps := by
  rw [eps_eq]; exact_mod_cast (by positivity)

theorem eps_ne_top : eps ≠ ⊤ := by
  rw [eps_eq]; exact EReal.coe_ne_top _

theorem temp_pos : 0 < temp := by
  rw [temp_eq]; exact_mod_cast (by positivity)

theorem temp_ne_top : temp ≠ ⊤ := by
  rw [temp_eq]; exact EReal.coe_ne_top _

end Cert.Spec

end
-- ==== Proof.KV.Value.lean ====
import proofs.«419305_j85452669321568_1_alg».proof.Proof.Gen.KernelIdeal.Frame
import proofs.«419305_j85452669321568_1_alg».proof.Proof.Math.Tiles
import proofs.«419305_j85452669321568_1_alg».proof.Proof.Math.Literals
import proofs.«419305_j85452669321568_1_alg».proof.Proof.LibColumnCast
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.Spec

variable (m : (ℓ : Loc nD τ sig) → Buf (Elt Ideal) ℓ) (ρ : Dev nD → PrngReg) (c : Dev nD)

theorem rowsF : (65536 : ℕ) = 2 * 16 * 2048 := by norm_num

/-- Adding the two parts' sums over their tiles is the sum over all rows. -/
theorem kernel_sums_fti
    (hfeat : V1 m ρ c main_arg0 = m ((c : Thread nD τ).loc main_arg0))
    (hlab : V1 m ρ c main_v0 = shapeCast S65536x1 (m ((c : Thread nD τ).loc main_arg2)) shapeCasts_S65536_S65536x1)
    (hS : ∀ (p : Fin 2) (cls : Fin 50) (d : Fin 64), ((dat0 (F := Ideal) (V1 m ρ) c).arrAt 2 cfg0.N : Vec Ideal S2x50x64 .f32) (ix3 p cls d)
        = ∑ k : Fin 16, ∑ t : Fin 2048, if ((V1 m ρ c main_v0 : Vec Ideal S65536x1 .i32) (ix2 (tileRow rowsF p k t) (0 : Fin 1))).toInt = (cls.val : Int)
            then unitRow (fun e : Fin 64 => (V1 m ρ c main_arg0 : Vec Ideal S65536x64 .f32) (ix2 (tileRow rowsF p k t) e)) d else 0) :
    (Host.reduceAdd ((dat0 (F := Ideal) (V1 m ρ) c).arrAt 2 cfg0.N : Vec Ideal S2x50x64 .f32) (constant S_ .f32 0x00000000#32) reducesTo_S2x50x64_S50x64_d0 h_S_ : FVec Ideal S50x64 .f32)
      = fun i => classSum (fun r : Fin 65536 => (m ((c : Thread nD τ).loc main_arg2) : Vec Ideal S65536 .i32) (ix1 r)) (fun (r : Fin 65536) (e : Fin 64) => (m ((c : Thread nD τ).loc main_arg0) : Vec Ideal S65536x64 .f32) (ix2 r e)) (i 0) (i 1) := by
  funext i
  simp only [Host.reduceAdd, Ideal.hostReduceAdd_def]
  rw [Ideal.hostReduceAdd_single reducesTo_S2x50x64_S50x64_d0 (by decide), constant_apply, Ideal.ofBits_zero_f32, zero_add]
  unfold classSum
  rw [sum_fin_tiles 2 16 2048 rowsF]
  refine Finset.sum_congr rfl fun p _ => ((congrArg ((dat0 (F := Ideal) (V1 m ρ) c).arrAt 2 cfg0.N : Vec Ideal S2x50x64 .f32) (funext fun a => Fin.ext (by
    match a with | ⟨0, _⟩ => rfl | ⟨1, _⟩ => rfl | ⟨2, _⟩ => rfl))).trans (hS p (i 0) (i 1))).trans ?_
  rw [hlab, hfeat]
  simp only [shapeCast_a_a1_apply]

theorem kernel_cnt_fti
    (hlab : V1 m ρ c main_v0 = shapeCast S65536x1 (m ((c : Thread nD τ).loc main_arg2)) shapeCasts_S65536_S65536x1)
    (hC : ∀ (p : Fin 2) (cls : Fin 50), ((dat0 (F := Ideal) (V1 m ρ) c).arrAt 3 cfg0.N : Vec Ideal S2x1x50 .f32) (ix3 p (0 : Fin 1) cls)
        = ∑ k : Fin 16, ∑ t : Fin 2048, if ((V1 m ρ c main_v0 : Vec Ideal S65536x1 .i32) (ix2 (tileRow rowsF p k t) (0 : Fin 1))).toInt = (cls.val : Int) then (1 : EReal) else 0) :
    (shapeCast S50 (Host.reduceAdd ((dat0 (F := Ideal) (V1 m ρ) c).arrAt 3 cfg0.N : Vec Ideal S2x1x50 .f32) (constant S_ .f32 0x00000000#32) reducesTo_S2x1x50_S1x50_d0 h_S_) shapeCasts_S1x50_S50 : FVec Ideal S50 .f32)
      = fun i => classCount (fun r : Fin 65536 => (m ((c : Thread nD τ).loc main_arg2) : Vec Ideal S65536 .i32) (ix1 r)) (i 0) := by
  funext i
  refine (congrArg _ (eq_ix1 i)).trans ((shapeCast_1a_a_apply _ shapeCasts_S1x50_S50 (i 0 : Fin 50)).trans ?_)
  simp only [Host.reduceAdd, Ideal.hostReduceAdd_def]
  rw [Ideal.hostReduceAdd_single reducesTo_S2x1x50_S1x50_d0 (by decide)]
  rw [constant_apply, Ideal.ofBits_zero_f32, zero_add]
  unfold classCount
  rw [sum_fin_tiles 2 16 2048 rowsF]
  refine Finset.sum_congr rfl fun (p : Fin 2) _ => ?_
  refine ((congrArg ((dat0 (F := Ideal) (V1 m ρ) c).arrAt 3 cfg0.N : Vec Ideal S2x1x50 .f32) (funext fun a => Fin.ext (by
    match a with | ⟨0, _⟩ => rfl | ⟨1, _⟩ => rfl | ⟨2, _⟩ => rfl))).trans (hC p (i 0))).trans ?_
  rw [hlab]
  simp only [shapeCast_a_a1_apply]

theorem kernel_loss_fti (P' : FVec Ideal S50x64 .f32)
    (hfeat : V17 m ρ c main_arg0 = m ((c : Thread nD τ).loc main_arg0))
    (hlab : V17 m ρ c main_v0 = shapeCast S65536x1 (m ((c : Thread nD τ).loc main_arg2)) shapeCasts_S65536_S65536x1)
    (hproto : V17 m ρ c main_v58 = transpose S64x50 [1, 0] P' transposes_S50x64_S64x50_1_0)
    (hL : ∀ p : Fin 2, ((dat2 (F := Ideal) (V17 m ρ) c).arrAt 3 cfg2.N : Vec Ideal S2x1x1 .f32) (ix3 p (0 : Fin 1) (0 : Fin 1))
        = ∑ k : Fin 16, ∑ t : Fin 2048, rowLoss (logit (fun e : Fin 64 => (V17 m ρ c main_arg0 : Vec Ideal S65536x64 .f32) (ix2 (tileRow rowsF p k t) e)) (fun (cl : Fin 50) (e : Fin 64) => (V17 m ρ c main_v58 : Vec Ideal S64x50 .f32) (ix2 e cl))) ((V17 m ρ c main_v0 : Vec Ideal S65536x1 .i32) (ix2 (tileRow rowsF p k t) (0 : Fin 1)))) :
    (Host.divf (Host.reduceAdd ((dat2 (F := Ideal) (V17 m ρ) c).arrAt 3 cfg2.N : Vec Ideal S2x1x1 .f32) (constant S_ .f32 0x00000000#32) reducesTo_S2x1x1_S_d0_1_2 h_S_) (constant S_ .f32 0x47800000#32) : FVec Ideal S_ .f32)
      = fun _ => Ideal.div (lossSum (fun r : Fin 65536 => (m ((c : Thread nD τ).loc main_arg2) : Vec Ideal S65536 .i32) (ix1 r)) (fun (r : Fin 65536) (e : Fin 64) => (m ((c : Thread nD τ).loc main_arg0) : Vec Ideal S65536x64 .f32) (ix2 r e)) (fun (cl : Fin 50) (e : Fin 64) => P' (ix2 cl e))) ((65536 : ℝ) : EReal) := by
  funext i
  simp only [Host.divf, Ideal.hostDivf_def, constant_apply, ofBits_65536, Host.reduceAdd, Ideal.hostReduceAdd_def]
  rw [Ideal.hostReduceAdd_total reducesTo_S2x1x1_S_d0_1_2 (fun b => b.elim0), Ideal.ofBits_zero_f32, zero_add]
  refine congrArg (fun x : EReal => Ideal.div x ((65536 : ℝ) : EReal)) ?_
  unfold lossSum
  rw [sum_fin_tiles 2 16 2048 rowsF]
  refine (sum_idxN11 2 _).trans (Finset.sum_congr rfl fun (p : Fin 2) _ => (hL p).trans ?_)
  rw [hlab, hfeat, hproto]
  simp only [shapeCast_a_a1_apply, transpose_ix2_apply P' transposes_S50x64_S64x50_1_0]

end Cert.KernelIdeal.KV

end
-- ==== Proof.KV.Value1.lean ====
import proofs.«419305_j85452669321568_1_alg».proof.Proof.Gen.KernelIdeal.Frame
import proofs.«419305_j85452669321568_1_alg».proof.Proof.Math.Tiles
import proofs.«419305_j85452669321568_1_alg».proof.Proof.Math.Literals
import proofs.«419305_j85452669321568_1_alg».proof.Proof.LibColumnCast
import Idealize.ShloMosaic.Lib.ValueLayout
import Idealize.ShloMosaic.PureOps.Ideal.Laws

noncomputable section

open scoped BigOperators
open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen Cert.Spec

variable (m : (ℓ : Loc nD τ sig) → Buf (Elt Ideal) ℓ) (ρ : Dev nD → PrngReg) (c : Dev nD)

theorem rowsR : (524288 : ℕ) = 2 * 64 * 4096 := by norm_num

/-- Adding the two parts' sums over their tiles is the sum over all rows. -/
theorem kernel_sums_rcl
    (hfeat : V3 m ρ c main_arg1 = m ((c : Thread nD τ).loc main_arg1))
    (hlab : V3 m ρ c main_v1 = shapeCast S524288x1 (m ((c : Thread nD τ).loc main_arg3)) shapeCasts_S524288_S524288x1)
    (hS : ∀ (p : Fin 2) (cls : Fin 200) (d : Fin 64), ((dat1 (F := Ideal) (V3 m ρ) c).arrAt 2 cfg1.N : Vec Ideal S2x200x64 .f32) (ix3 p cls d)
        = ∑ k : Fin 64, ∑ t : Fin 4096, if ((V3 m ρ c main_v1 : Vec Ideal S524288x1 .i32) (ix2 (tileRow rowsR p k t) (0 : Fin 1))).toInt = (cls.val : Int)
            then unitRow (fun e : Fin 64 => (V3 m ρ c main_arg1 : Vec Ideal S524288x64 .f32) (ix2 (tileRow rowsR p k t) e)) d else 0) :
    (Host.reduceAdd ((dat1 (F := Ideal) (V3 m ρ) c).arrAt 2 cfg1.N : Vec Ideal S2x200x64 .f32) (constant S_ .f32 0x00000000#32) reducesTo_S2x200x64_S200x64_d0 h_S_ : FVec Ideal S200x64 .f32)
      = fun i => classSum (fun r : Fin 524288 => (m ((c : Thread nD τ).loc main_arg3) : Vec Ideal S524288 .i32) (ix1 r)) (fun (r : Fin 524288) (e : Fin 64) => (m ((c : Thread nD τ).loc main_arg1) : Vec Ideal S524288x64 .f32) (ix2 r e)) (i 0) (i 1) := by
  funext i
  simp only [Host.reduceAdd, Ideal.hostReduceAdd_def]
  rw [Ideal.hostReduceAdd_single reducesTo_S2x200x64_S200x64_d0 (by decide), constant_apply, Ideal.ofBits_zero_f32, zero_add]
  unfold classSum
  rw [sum_fin_tiles 2 64 4096 rowsR]
  refine Finset.sum_congr rfl fun p _ => ((congrArg ((dat1 (F := Ideal) (V3 m ρ) c).arrAt 2 cfg1.N : Vec Ideal S2x200x64 .f32) (funext fun a => Fin.ext (by
    match a with | ⟨0, _⟩ => rfl | ⟨1, _⟩ => rfl | ⟨2, _⟩ => rfl))).trans (hS p (i 0) (i 1))).trans ?_
  rw [hlab, hfeat]
  simp only [shapeCast_a_a1_apply]

theorem kernel_cnt_rcl
    (hlab : V3 m ρ c main_v1 = shapeCast S524288x1 (m ((c : Thread nD τ).loc main_arg3)) shapeCasts_S524288_S524288x1)
    (hC : ∀ (p : Fin 2) (cls : Fin 200), ((dat1 (F := Ideal) (V3 m ρ) c).arrAt 3 cfg1.N : Vec Ideal S2x1x200 .f32) (ix3 p (0 : Fin 1) cls)
        = ∑ k : Fin 64, ∑ t : Fin 4096, if ((V3 m ρ c main_v1 : Vec Ideal S524288x1 .i32) (ix2 (tileRow rowsR p k t) (0 : Fin 1))).toInt = (cls.val : Int) then (1 : EReal) else 0) :
    (shapeCast S200 (Host.reduceAdd ((dat1 (F := Ideal) (V3 m ρ) c).arrAt 3 cfg1.N : Vec Ideal S2x1x200 .f32) (constant S_ .f32 0x00000000#32) reducesTo_S2x1x200_S1x200_d0 h_S_) shapeCasts_S1x200_S200 : FVec Ideal S200 .f32)
      = fun i => classCount (fun r : Fin 524288 => (m ((c : Thread nD τ).loc main_arg3) : Vec Ideal S524288 .i32) (ix1 r)) (i 0) := by
  funext i
  refine (congrArg _ (eq_ix1 i)).trans ((shapeCast_1a_a_apply _ shapeCasts_S1x200_S200 (i 0 : Fin 200)).trans ?_)
  simp only [Host.reduceAdd, Ideal.hostReduceAdd_def]
  rw [Ideal.hostReduceAdd_single reducesTo_S2x1x200_S1x200_d0 (by decide)]
  rw [constant_apply, Ideal.ofBits_zero_f32, zero_add]
  unfold classCount
  rw [sum_fin_tiles 2 64 4096 rowsR]
  refine Finset.sum_congr rfl fun (p : Fin 2) _ => ?_
  refine ((congrArg ((dat1 (F := Ideal) (V3 m ρ) c).arrAt 3 cfg1.N : Vec Ideal S2x1x200 .f32) (funext fun a => Fin.ext (by
    match a with | ⟨0, _⟩ => rfl | ⟨1, _⟩ => rfl | ⟨2, _⟩ => rfl))).trans (hC p (i 0))).trans ?_
  rw [hlab]
  simp only [shapeCast_a_a1_apply]

theorem kernel_loss_rcl (P' : FVec Ideal S200x64 .f32)
    (hfeat : V19 m ρ c main_arg1 = m ((c : Thread nD τ).loc main_arg1))
    (hlab : V19 m ρ c main_v1 = shapeCast S524288x1 (m ((c : Thread nD τ).loc main_arg3)) shapeCasts_S524288_S524288x1)
    (hproto : V19 m ρ c main_v62 = transpose S64x200 [1, 0] P' transposes_S200x64_S64x200_1_0)
    (hL : ∀ p : Fin 2, ((dat3 (F := Ideal) (V19 m ρ) c).arrAt 3 cfg3.N : Vec Ideal S2x1x1 .f32) (ix3 p (0 : Fin 1) (0 : Fin 1))
        = ∑ k : Fin 64, ∑ t : Fin 4096, rowLoss (logit (fun e : Fin 64 => (V19 m ρ c main_arg1 : Vec Ideal S524288x64 .f32) (ix2 (tileRow rowsR p k t) e)) (fun (cl : Fin 200) (e : Fin 64) => (V19 m ρ c main_v62 : Vec Ideal S64x200 .f32) (ix2 e cl))) ((V19 m ρ c main_v1 : Vec Ideal S524288x1 .i32) (ix2 (tileRow rowsR p k t) (0 : Fin 1)))) :
    (Host.divf (Host.reduceAdd ((dat3 (F := Ideal) (V19 m ρ) c).arrAt 3 cfg3.N : Vec Ideal S2x1x1 .f32) (constant S_ .f32 0x00000000#32) reducesTo_S2x1x1_S_d0_1_2 h_S_) (constant S_ .f32 0x49000000#32) : FVec Ideal S_ .f32)
      = fun _ => Ideal.div (lossSum (fun r : Fin 524288 => (m ((c : Thread nD τ).loc main_arg3) : Vec Ideal S524288 .i32) (ix1 r)) (fun (r : Fin 524288) (e : Fin 64) => (m ((c : Thread nD τ).loc main_arg1) : Vec Ideal S524288x64 .f32) (ix2 r e)) (fun (cl : Fin 200) (e : Fin 64) => P' (ix2 cl e))) ((524288 : ℝ) : EReal) := by
  funext i
  simp only [Host.divf, Ideal.hostDivf_def, constant_apply, ofBits_524288, Host.reduceAdd, Ideal.hostReduceAdd_def]
  rw [Ideal.hostReduceAdd_total reducesTo_S2x1x1_S_d0_1_2 (fun b => b.elim0), Ideal.ofBits_zero_f32, zero_add]
  refine congrArg (fun x : EReal => Ideal.div x ((524288 : ℝ) : EReal)) ?_
  unfold lossSum
  rw [sum_fin_tiles 2 64 4096 rowsR]
  refine (sum_idxN11 2 _).trans (Finset.sum_congr rfl fun (p : Fin 2) _ => (hL p).trans ?_)
  rw [hlab, hfeat, hproto]
  simp only [shapeCast_a_a1_apply, transpose_ix2_apply P' transposes_S200x64_S64x200_1_0]

end Cert.KernelIdeal.KV

end
-- ==== Proof.Goal.lean ====
import proofs.«419305_j85452669321568_1_alg».proof.Proof.Math.Spec
import proofs.«419305_j85452669321568_1_alg».proof.Proof.KV.Upd
import Idealize.ShloMosaic.Lib.ValueIdx

noncomputable section

open Idealize.ShloMosaic Idealize.ShloMosaic.ValueIdx

namespace Cert.Proof

open Cert.Spec

-- The results as functions of the arguments: per branch the class sums, the class counts, and the summed row losses against the prototypes updated from them, over the number of rows.
def sumsFti (x0 : (⟨2, ![65536, 64]⟩ : Shape).Idx → EReal) (x2 : (⟨1, ![65536]⟩ : Shape).Idx → BitVec 32) :
    (⟨2, ![50, 64]⟩ : Shape).Idx → EReal :=
  fun i => classSum (fun r : Fin 65536 => x2 (ix1 r)) (fun (r : Fin 65536) (e : Fin 64) => x0 (ix2 r e)) (i 0) (i 1)

def cntFti (x2 : (⟨1, ![65536]⟩ : Shape).Idx → BitVec 32) : (⟨1, ![50]⟩ : Shape).Idx → EReal :=
  fun i => classCount (fun r : Fin 65536 => x2 (ix1 r)) (i 0)

def lossFti (x0 : (⟨2, ![65536, 64]⟩ : Shape).Idx → EReal) (x2 : (⟨1, ![65536]⟩ : Shape).Idx → BitVec 32)
    (x4 : (⟨2, ![50, 64]⟩ : Shape).Idx → EReal) : EReal :=
  Ideal.div (lossSum (fun r : Fin 65536 => x2 (ix1 r)) (fun (r : Fin 65536) (e : Fin 64) => x0 (ix2 r e))
    (fun (cl : Fin 50) (e : Fin 64) => Cert.KernelIdeal.KV.updFti (F := Ideal) (sumsFti x0 x2) (cntFti x2) x4 (ix2 cl e)))
    ((65536 : ℝ) : EReal)

def sumsRcl (x1 : (⟨2, ![524288, 64]⟩ : Shape).Idx → EReal) (x3 : (⟨1, ![524288]⟩ : Shape).Idx → BitVec 32) :
    (⟨2, ![200, 64]⟩ : Shape).Idx → EReal :=
  fun i => classSum (fun r : Fin 524288 => x3 (ix1 r)) (fun (r : Fin 524288) (e : Fin 64) => x1 (ix2 r e)) (i 0) (i 1)

def cntRcl (x3 : (⟨1, ![524288]⟩ : Shape).Idx → BitVec 32) : (⟨1, ![200]⟩ : Shape).Idx → EReal :=
  fun i => classCount (fun r : Fin 524288 => x3 (ix1 r)) (i 0)

def lossRcl (x1 : (⟨2, ![524288, 64]⟩ : Shape).Idx → EReal) (x3 : (⟨1, ![524288]⟩ : Shape).Idx → BitVec 32)
    (x5 : (⟨2, ![200, 64]⟩ : Shape).Idx → EReal) : EReal :=
  Ideal.div (lossSum (fun r : Fin 524288 => x3 (ix1 r)) (fun (r : Fin 524288) (e : Fin 64) => x1 (ix2 r e))
    (fun (cl : Fin 200) (e : Fin 64) => Cert.KernelIdeal.KV.updRcl (F := Ideal) (sumsRcl x1 x3) (cntRcl x3) x5 (ix2 cl e)))
    ((524288 : ℝ) : EReal)

end Cert.Proof

end
-- ==== Proof.KV.Result.lean ====
import proofs.«419305_j85452669321568_1_alg».proof.Proof.KV.Glue
import proofs.«419305_j85452669321568_1_alg».proof.Proof.KV.StatsTile
import proofs.«419305_j85452669321568_1_alg».proof.Proof.KV.StatsTile1
import proofs.«419305_j85452669321568_1_alg».proof.Proof.KV.LossTile
import proofs.«419305_j85452669321568_1_alg».proof.Proof.KV.LossTile3
import proofs.«419305_j85452669321568_1_alg».proof.Proof.KV.StatsAcc
import proofs.«419305_j85452669321568_1_alg».proof.Proof.KV.StatsAcc1
import proofs.«419305_j85452669321568_1_alg».proof.Proof.KV.LossAcc
import proofs.«419305_j85452669321568_1_alg».proof.Proof.KV.LossAcc3
import proofs.«419305_j85452669321568_1_alg».proof.Proof.KV.Value
import proofs.«419305_j85452669321568_1_alg».proof.Proof.KV.Value1
import proofs.«419305_j85452669321568_1_alg».proof.Proof.Goal

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable (m : (ℓ : Loc nD τ sig) → Buf (Elt Ideal) ℓ) (ρ : Dev nD → PrngReg) (c : Dev nD)

theorem statsTileFacts : StatsTileFacts := ⟨stats_zero_sums, stats_zero_cnt, stats_sums_apply, stats_cnt_apply⟩
theorem statsTileFacts1 : StatsTileFacts1 := ⟨stats1_zero_sums, stats1_zero_cnt, stats1_sums_apply, stats1_cnt_apply⟩
theorem lossTileFacts : LossTileFacts := ⟨loss_zero, loss_acc_apply, loss_tile_apply⟩
theorem lossTileFacts3 : LossTileFacts3 := ⟨loss3_zero, loss3_acc_apply, loss3_tile_apply⟩

-- Tile facts, grid bookkeeping and the host arithmetic between the regions, joined: the kernel's class sums, class counts and losses are the specification's.
theorem sums_fti_eq : sumsFti m ρ c
    = Cert.Proof.sumsFti (m ((c : Thread nD τ).loc main_arg0)) (m ((c : Thread nD τ).loc main_arg2)) :=
  kernel_sums_fti m ρ c (V1_feat m ρ c) (V1_lab m ρ c) (fun p cls d => sumsOut0_apply (V1 m ρ) statsTileFacts c p cls d)

theorem cnt_fti_eq : cntFti m ρ c = Cert.Proof.cntFti (m ((c : Thread nD τ).loc main_arg2)) :=
  kernel_cnt_fti m ρ c (V1_lab m ρ c) (fun p cls => cntOut0_apply (V1 m ρ) statsTileFacts c p cls)

theorem kernel_result_fti : W21 m ρ c (Proc.devRef .tc main_v61)
    = fun _ => Cert.Proof.lossFti (m ((c : Thread nD τ).loc main_arg0)) (m ((c : Thread nD τ).loc main_arg2)) (m ((c : Thread nD τ).loc main_arg4)) := by
  have hP := V17_proto m ρ c
  rw [sums_fti_eq m ρ c, cnt_fti_eq m ρ c] at hP
  unfold Cert.Proof.lossFti
  exact (W21_loss_fti m ρ c).trans (kernel_loss_fti m ρ c _ (V17_feat m ρ c) (V17_lab m ρ c) hP
    (fun p => lossOut2_apply (V17 m ρ) lossTileFacts c p))

theorem sums_rcl_eq : sumsRcl m ρ c
    = Cert.Proof.sumsRcl (m ((c : Thread nD τ).loc main_arg1)) (m ((c : Thread nD τ).loc main_arg3)) :=
  kernel_sums_rcl m ρ c (V3_feat m ρ c) (V3_lab m ρ c) (fun p cls d => sumsOut1_apply (V3 m ρ) statsTileFacts1 c p cls d)

theorem cnt_rcl_eq : cntRcl m ρ c = Cert.Proof.cntRcl (m ((c : Thread nD τ).loc main_arg3)) :=
  kernel_cnt_rcl m ρ c (V3_lab m ρ c) (fun p cls => cntOut1_apply (V3 m ρ) statsTileFacts1 c p cls)

theorem kernel_result_rcl : W21 m ρ c (Proc.devRef .tc main_v65)
    = fun _ => Cert.Proof.lossRcl (m ((c : Thread nD τ).loc main_arg1)) (m ((c : Thread nD τ).loc main_arg3)) (m ((c : Thread nD τ).loc main_arg5)) := by
  have hP := V19_proto m ρ c
  rw [sums_rcl_eq m ρ c, cnt_rcl_eq m ρ c] at hP
  unfold Cert.Proof.lossRcl
  exact (W21_loss_rcl m ρ c).trans (kernel_loss_rcl m ρ c _ (V19_feat m ρ c) (V19_lab m ρ c) hP
    (fun p => lossOut3_apply (V19 m ρ) lossTileFacts3 c p))

end Cert.KernelIdeal.KV

end
-- ==== Proof.RV.Run.lean ====
import proofs.«419305_j85452669321568_1_alg».proof.Proof.RefRead
import Idealize.ShloMosaic.Lib.StableHlo.Run
import Idealize.ShloMosaic.Lib.Pipeline.Frame

noncomputable section

namespace Cert.ReferenceIdeal.RV

open Cert.ReferenceIdeal Cert.ReferenceIdeal.Gen Idealize.ShloMosaic Idealize.ShloMosaic.TcCoe Idealize.SL.Sem Idealize.ShloMosaic.StableHlo

variable {F : FTy → Type} [FloatOps F]

-- Operations a + 1 … a + n of the program.
abbrev seg (a n : ℕ) : List (HloOp τ sig (Elt F)) := ((Value.ops (F := F)).drop a).take n

-- The operations `l` write none of the buffers `rs`.
def Keeps (l : List (HloOp τ sig (Elt F))) (rs : List (Ref sig .tc)) : Prop :=
  ∀ (V : Valuation τ sig (Elt F)), ∀ r ∈ rs, after l V (Proc.devRef .tc r) = V (Proc.devRef .tc r)

-- The two transports along a typed reference's type equation cancel.
theorem ofBuf_toBuf {T : BufTy} (x : StableHlo.TRef sig T) (v : T.Contents (Elt F)) : x.ofBuf (x.toBuf v) = v := by
  obtain ⟨r, rfl, h1, h2⟩ := x
  rfl

variable (V : Valuation τ sig (Elt F))
  (y0 : (⟨S65536x64, .f32⟩ : BufTy).Contents (Elt F)) (y2 : (⟨S65536, .i32⟩ : BufTy).Contents (Elt F))
  (y4 : (⟨S50x64, .f32⟩ : BufTy).Contents (Elt F)) (y1 : (⟨S524288x64, .f32⟩ : BufTy).Contents (Elt F))
  (y3 : (⟨S524288, .i32⟩ : BufTy).Contents (Elt F)) (y5 : (⟨S200x64, .f32⟩ : BufTy).Contents (Elt F))

-- Operations 1 to 26: the first table's class means and class counts.
theorem means_fti : after (seg (F := F) 0 26) V (Proc.devRef .tc main_v16) = Read.val_main_v16 (F := F) (V (Proc.devRef .tc main_arg0)) (V (Proc.devRef .tc main_arg2))
    ∧ after (seg (F := F) 0 26) V (Proc.devRef .tc main_v11) = Read.val_main_v11 (F := F) (V (Proc.devRef .tc main_arg2)) := by
  simp only [seg, Value.ops, List.drop_succ_cons, List.drop_zero, List.take_succ_cons, List.take_zero]
  constructor <;> (after_results_simp; rfl)

-- Operations 27 to 59: the first table's updated prototypes.
theorem proto_fti (h16 : V (Proc.devRef .tc main_v16) = Read.val_main_v16 (F := F) y0 y2)
    (h11 : V (Proc.devRef .tc main_v11) = Read.val_main_v11 (F := F) y2) :
    after (seg (F := F) 26 33) V (Proc.devRef .tc main_v35) = Read.val_main_v35 (F := F) y0 y2 (V (Proc.devRef .tc main_arg4)) := by
  simp only [seg, Value.ops, List.drop_succ_cons, List.drop_zero, List.take_succ_cons, List.take_zero]
  after_results_simp
  rw [h16, h11]
  rfl

-- Operations 60 to 85 and 86 to 118: the same for the second table.
theorem means_rcl : after (seg (F := F) 59 26) V (Proc.devRef .tc main_v52) = Read.val_main_v52 (F := F) (V (Proc.devRef .tc main_arg1)) (V (Proc.devRef .tc main_arg3))
    ∧ after (seg (F := F) 59 26) V (Proc.devRef .tc main_v47) = Read.val_main_v47 (F := F) (V (Proc.devRef .tc main_arg3)) := by
  simp only [seg, Value.ops, List.drop_succ_cons, List.drop_zero, List.take_succ_cons, List.take_zero]
  constructor <;> (after_results_simp; rfl)

theorem proto_rcl (h52 : V (Proc.devRef .tc main_v52) = Read.val_main_v52 (F := F) y1 y3)
    (h47 : V (Proc.devRef .tc main_v47) = Read.val_main_v47 (F := F) y3) :
    after (seg (F := F) 85 33) V (Proc.devRef .tc main_v71) = Read.val_main_v71 (F := F) y1 y3 (V (Proc.devRef .tc main_arg5)) := by
  simp only [seg, Value.ops, List.drop_succ_cons, List.drop_zero, List.take_succ_cons, List.take_zero]
  after_results_simp
  rw [h52, h47]
  rfl

-- Operations 119 to 192, in four stretches cut where a value is read more than once: the first loss.
theorem logits_fti (h35 : V (Proc.devRef .tc main_v35) = Read.val_main_v35 (F := F) (V (Proc.devRef .tc main_arg0)) (V (Proc.devRef .tc main_arg2)) y4) :
    after (seg (F := F) 118 22) V (Proc.devRef .tc main_v73) = Read.val_main_v73 (F := F) (V (Proc.devRef .tc main_arg2))
    ∧ after (seg (F := F) 118 22) V (Proc.devRef .tc main_v74) = Read.val_main_v74 (F := F) (V (Proc.devRef .tc main_arg2))
    ∧ after (seg (F := F) 118 22) V (Proc.devRef .tc main_v83) = Read.val_main_v83 (F := F) (V (Proc.devRef .tc main_arg0)) (V (Proc.devRef .tc main_arg2)) y4 := by
  simp only [seg, Value.ops, List.drop_succ_cons, List.drop_zero, List.take_succ_cons, List.take_zero]
  refine ⟨?_, ?_, ?_⟩ <;> after_results_simp <;> (try simp only [StableHlo.TRef.ofBuf, StableHlo.TRef.toBuf, cast_eq, h35]) <;> rfl

theorem logsoftmax_fti (h83 : V (Proc.devRef .tc main_v83) = Read.val_main_v83 (F := F) y0 y2 y4) :
    after (seg (F := F) 140 15) V (Proc.devRef .tc main_v84) = Read.val_main_v84 (F := F) y0 y2 y4 := by
  simp only [seg, Value.ops, List.drop_succ_cons, List.drop_zero, List.take_succ_cons, List.take_zero]
  after_results_simp
  simp only [ofBuf_toBuf]
  rw [h83]
  simp only [StableHlo.TRef.ofBuf, StableHlo.TRef.toBuf, cast_eq]
  rfl

theorem starts_fti (h74 : V (Proc.devRef .tc main_v74) = Read.val_main_v74 (F := F) y2) :
    after (seg (F := F) 155 9) V (Proc.devRef .tc main_call11_v5) = Read.val_main_call11_v5 (F := F) y2 := by
  simp only [seg, Value.ops, List.drop_succ_cons, List.drop_zero, List.take_succ_cons, List.take_zero]
  after_results_simp
  rw [h74]
  simp only [StableHlo.TRef.ofBuf, StableHlo.TRef.toBuf, cast_eq]
  rfl

theorem loss_fti (h84 : V (Proc.devRef .tc main_v84) = Read.val_main_v84 (F := F) y0 y2 y4)
    (h5 : V (Proc.devRef .tc main_call11_v5) = Read.val_main_call11_v5 (F := F) y2)
    (h73 : V (Proc.devRef .tc main_v73) = Read.val_main_v73 (F := F) y2) :
    after (seg (F := F) 164 28) V (Proc.devRef .tc main_v94) = Read.val_main_v94 (F := F) y0 y2 y4 := by
  simp only [seg, Value.ops, List.drop_succ_cons, List.drop_zero, List.take_succ_cons, List.take_zero]
  after_results_simp
  rw [h84, h5, h73]
  simp only [StableHlo.TRef.ofBuf, StableHlo.TRef.toBuf, cast_eq]
  rfl

-- Operations 193 to 266, in four stretches: the second loss.
theorem rows_rcl : after (seg (F := F) 192 17) V (Proc.devRef .tc main_v96) = Read.val_main_v96 (F := F) (V (Proc.devRef .tc main_arg3))
    ∧ after (seg (F := F) 192 17) V (Proc.devRef .tc main_v97) = Read.val_main_v97 (F := F) (V (Proc.devRef .tc main_arg3))
    ∧ after (seg (F := F) 192 17) V (Proc.devRef .tc main_v102) = Read.val_main_v102 (F := F) (V (Proc.devRef .tc main_arg1)) := by
  simp only [seg, Value.ops, List.drop_succ_cons, List.drop_zero, List.take_succ_cons, List.take_zero]
  refine ⟨?_, ?_, ?_⟩ <;> after_results_simp <;> (try simp only [ofBuf_toBuf]) <;>
    (try simp only [StableHlo.TRef.ofBuf, StableHlo.TRef.toBuf, cast_eq]) <;> rfl

theorem logsoftmax_rcl (h71 : V (Proc.devRef .tc main_v71) = Read.val_main_v71 (F := F) y1 y3 y5)
    (h102 : V (Proc.devRef .tc main_v102) = Read.val_main_v102 (F := F) y1) :
    after (seg (F := F) 209 20) V (Proc.devRef .tc main_v107) = Read.val_main_v107 (F := F) y1 y3 y5 := by
  simp only [seg, Value.ops, List.drop_succ_cons, List.drop_zero, List.take_succ_cons, List.take_zero]
  after_results_simp
  try simp only [ofBuf_toBuf]
  rw [h71, h102]
  try simp only [StableHlo.TRef.ofBuf, StableHlo.TRef.toBuf, cast_eq]
  rfl

theorem pick_rcl (h97 : V (Proc.devRef .tc main_v97) = Read.val_main_v97 (F := F) y3)
    (h107 : V (Proc.devRef .tc main_v107) = Read.val_main_v107 (F := F) y1 y3 y5) :
    after (seg (F := F) 229 23) V (Proc.devRef .tc main_v109) = Read.val_main_v109 (F := F) y1 y3 y5 := by
  simp only [seg, Value.ops, List.drop_succ_cons, List.drop_zero, List.take_succ_cons, List.take_zero]
  after_results_simp
  try simp only [ofBuf_toBuf]
  rw [h97, h107]
  try simp only [StableHlo.TRef.ofBuf, StableHlo.TRef.toBuf, cast_eq]
  rfl

theorem loss_rcl (h109 : V (Proc.devRef .tc main_v109) = Read.val_main_v109 (F := F) y1 y3 y5)
    (h96 : V (Proc.devRef .tc main_v96) = Read.val_main_v96 (F := F) y3) :
    after (seg (F := F) 252 14) V (Proc.devRef .tc main_v117) = Read.val_main_v117 (F := F) y1 y3 y5 := by
  simp only [seg, Value.ops, List.drop_succ_cons, List.drop_zero, List.take_succ_cons, List.take_zero]
  after_results_simp
  try simp only [ofBuf_toBuf]
  rw [h109, h96]
  try simp only [StableHlo.TRef.ofBuf, StableHlo.TRef.toBuf, cast_eq]
  rfl

abbrev args : List (Ref sig .tc) := [main_arg0, main_arg1, main_arg2, main_arg3, main_arg4, main_arg5]

theorem keepA : Keeps (F := F) (seg 0 26) args := by
  intro V r hr
  simp only [args, seg, Value.ops, List.drop_succ_cons, List.drop_zero, List.take_succ_cons, List.take_zero] at hr ⊢
  fin_cases hr <;> after_results_simp

theorem keepB : Keeps (F := F) (seg 26 33) args := by
  intro V r hr
  simp only [args, seg, Value.ops, List.drop_succ_cons, List.drop_zero, List.take_succ_cons, List.take_zero] at hr ⊢
  fin_cases hr <;> after_results_simp

theorem keepC : Keeps (F := F) (seg 59 26) (main_v35 :: args) := by
  intro V r hr
  simp only [args, seg, Value.ops, List.drop_succ_cons, List.drop_zero, List.take_succ_cons, List.take_zero] at hr ⊢
  fin_cases hr <;> after_results_simp

theorem keepD : Keeps (F := F) (seg 85 33) (main_v35 :: args) := by
  intro V r hr
  simp only [args, seg, Value.ops, List.drop_succ_cons, List.drop_zero, List.take_succ_cons, List.take_zero] at hr ⊢
  fin_cases hr <;> after_results_simp

theorem keepL1 : Keeps (F := F) (seg 118 74) (main_v71 :: args) := by
  intro V r hr
  simp only [args, seg, Value.ops, List.drop_succ_cons, List.drop_zero, List.take_succ_cons, List.take_zero] at hr ⊢
  fin_cases hr <;> after_results_simp

theorem keepL2 : Keeps (F := F) (seg 192 74) (main_v94 :: args) := by
  intro V r hr
  simp only [args, seg, Value.ops, List.drop_succ_cons, List.drop_zero, List.take_succ_cons, List.take_zero] at hr ⊢
  fin_cases hr <;> after_results_simp

theorem keepG : Keeps (F := F) (seg 140 15) [main_v73, main_v74] := by
  intro V r hr
  simp only [args, seg, Value.ops, List.drop_succ_cons, List.drop_zero, List.take_succ_cons, List.take_zero] at hr ⊢
  fin_cases hr <;> after_results_simp

theorem keepI : Keeps (F := F) (seg 155 9) [main_v73, main_v84] := by
  intro V r hr
  simp only [args, seg, Value.ops, List.drop_succ_cons, List.drop_zero, List.take_succ_cons, List.take_zero] at hr ⊢
  fin_cases hr <;> after_results_simp

theorem keepK : Keeps (F := F) (seg 192 17) [main_v71] := by
  intro V r hr
  simp only [args, seg, Value.ops, List.drop_succ_cons, List.drop_zero, List.take_succ_cons, List.take_zero] at hr ⊢
  fin_cases hr <;> after_results_simp

theorem keepL : Keeps (F := F) (seg 209 20) [main_v96, main_v97] := by
  intro V r hr
  simp only [args, seg, Value.ops, List.drop_succ_cons, List.drop_zero, List.take_succ_cons, List.take_zero] at hr ⊢
  fin_cases hr <;> after_results_simp

theorem keepM : Keeps (F := F) (seg 229 23) [main_v96] := by
  intro V r hr
  simp only [args, seg, Value.ops, List.drop_succ_cons, List.drop_zero, List.take_succ_cons, List.take_zero] at hr ⊢
  fin_cases hr <;> after_results_simp

variable (W : Valuation τ sig (Elt F)) {r : Ref sig .tc}

-- No stretch writes an argument, so an argument read after several stretches is the launch's.
theorem keep_ab (hr : r ∈ args) : after (seg 26 33) (after (seg 0 26) W) (Proc.devRef .tc r) = W (Proc.devRef .tc r) :=
  (keepB _ r hr).trans (keepA W r hr)

theorem keep_abc (hr : r ∈ args) : after (seg 59 26) (after (seg 26 33) (after (seg 0 26) W)) (Proc.devRef .tc r) = W (Proc.devRef .tc r) :=
  (keepC _ r (.tail _ hr)).trans (keep_ab W hr)

theorem keep_h (hr : r ∈ args) : after (seg 85 33) (after (seg 59 26) (after (seg 26 33) (after (seg 0 26) W))) (Proc.devRef .tc r) = W (Proc.devRef .tc r) :=
  (keepD _ r (.tail _ hr)).trans (keep_abc W hr)

theorem keep_args (hr : r ∈ args) : after Value.ops W (Proc.devRef .tc r) = W (Proc.devRef .tc r) := by
  rw [show Value.ops (F := F) = seg 0 26 ++ (seg 26 33 ++ (seg 59 26 ++ (seg 85 33 ++ (seg 118 74 ++ seg 192 74)))) from rfl]
  simp only [after_append]
  rw [keepL2 _ r (.tail _ hr), keepL1 _ r (.tail _ hr), keep_h W hr]

-- The stretches in order: each reads what earlier ones left, and nothing in between rewrites it.
theorem ops_v94 : after Value.ops W (Proc.devRef .tc main_v94)
    = Read.val_main_v94 (F := F) (W (Proc.devRef .tc main_arg0)) (W (Proc.devRef .tc main_arg2)) (W (Proc.devRef .tc main_arg4)) := by
  have A := means_fti W
  have B := (keepD _ _ (.head _)).trans ((keepC _ _ (.head _)).trans (proto_fti _ _ _ A.1 A.2))
  rw [keepA W main_arg4 (by decide), ← keep_h W (r := main_arg0) (by decide), ← keep_h W (r := main_arg2) (by decide)] at B
  have E := logits_fti _ _ B
  have G := logsoftmax_fti _ _ _ _ E.2.2
  have I := starts_fti _ _ ((keepG _ _ (.tail _ (.head _))).trans E.2.1)
  have J := loss_fti _ _ _ _ ((keepI _ _ (.tail _ (.head _))).trans G) I ((keepI _ _ (.head _)).trans ((keepG _ _ (.head _)).trans E.1))
  rw [keep_h W (r := main_arg0) (by decide), keep_h W (r := main_arg2) (by decide)] at J
  rw [show Value.ops (F := F) = seg 0 26 ++ (seg 26 33 ++ (seg 59 26 ++ (seg 85 33 ++ (seg 118 22 ++ (seg 140 15 ++ (seg 155 9 ++ (seg 164 28 ++ seg 192 74))))))) from rfl]
  simp only [after_append]
  exact (keepL2 _ _ (.head _)).trans J

theorem ops_v117 : after Value.ops W (Proc.devRef .tc main_v117)
    = Read.val_main_v117 (F := F) (W (Proc.devRef .tc main_arg1)) (W (Proc.devRef .tc main_arg3)) (W (Proc.devRef .tc main_arg5)) := by
  have C := means_rcl (after (seg 26 33) (after (seg (F := F) 0 26) W))
  rw [keep_ab W (r := main_arg1) (by decide), keep_ab W (r := main_arg3) (by decide)] at C
  have Dd := (keepK _ _ (.head _)).trans ((keepL1 _ _ (.head _)).trans (proto_rcl _ _ _ C.1 C.2))
  rw [keep_abc W (r := main_arg5) (by decide)] at Dd
  have K := rows_rcl (after (seg 118 74) (after (seg 85 33) (after (seg 59 26) (after (seg 26 33) (after (seg (F := F) 0 26) W)))))
  rw [keepL1 _ main_arg1 (by decide), keepL1 _ main_arg3 (by decide), keep_h W (r := main_arg1) (by decide), keep_h W (r := main_arg3) (by decide)] at K
  have L := logsoftmax_rcl _ _ _ _ Dd K.2.2
  have M := pick_rcl _ _ _ _ ((keepL _ _ (.tail _ (.head _))).trans K.2.1) L
  rw [show Value.ops (F := F) = seg 0 26 ++ (seg 26 33 ++ (seg 59 26 ++ (seg 85 33 ++ (seg 118 74 ++ (seg 192 17 ++ (seg 209 20 ++ (seg 229 23 ++ seg 252 14))))))) from rfl]
  simp only [after_append]
  exact loss_rcl _ _ _ _ M ((keepM _ _ (.head _)).trans ((keepL _ _ (.head _)).trans K.1))

-- Every weakly fair execution ends with both losses at their stages of the arguments, the arguments as they were.
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = Read.val_main_v94 (F := F) (m ((c.tc : Thread nD τ).loc main_arg0)) (m ((c.tc : Thread nD τ).loc main_arg2)) (m ((c.tc : Thread nD τ).loc main_arg4))
      ∧ r.2.mem ((c.tc : Thread nD τ).loc main_v117) = Read.val_main_v117 (F := F) (m ((c.tc : Thread nD τ).loc main_arg1)) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v94).trans (ops_v94 (launchContents m c)),
      (h c main_v117).trans (ops_v117 (launchContents m c)),
      (h c main_arg0).trans (keep_args (launchContents m c) (by decide)), (h c main_arg1).trans (keep_args (launchContents m c) (by decide)),
      (h c main_arg2).trans (keep_args (launchContents m c) (by decide)), (h c main_arg3).trans (keep_args (launchContents m c) (by decide)),
      (h c main_arg4).trans (keep_args (launchContents m c) (by decide)), (h c main_arg5).trans (keep_args (launchContents m c) (by decide))⟩)
    (run_seq Value.scopedRefs_eq Value.scopedSems_eq defs main (fun _ => Value.ops) Value.main_eq (fun _ => Value.ops_sub) m ρ)

end Cert.ReferenceIdeal.RV

end
-- ==== Proof.LibScatterVec.lean ====
import Idealize.ShloMosaic.PureOps.Ideal
import Idealize.ShloMosaic.Lib.ValueIdx

noncomputable section

open scoped BigOperators

namespace Idealize.ShloMosaic

namespace ScatterVec

/-- An update lands on `i` exactly when its start plus its window coordinate is `i` on every axis. -/
theorem lands_iff {s si u : Shape} (d : ScatterDims s si u) {w : Nat} (j : u.Idx) (idx : IVec si w) (i : s.Idx) :
    d.resultIdx? j idx = some i ↔ ∀ a, d.start j idx a + d.window j a = ((i a).val : Int) := by
  unfold ScatterDims.resultIdx?
  split
  · rename_i h
    rw [Option.some.injEq, funext_iff]
    refine forall_congr' fun a => ?_
    rw [Fin.ext_iff]
    show (d.start j idx a + d.window j a).toNat = (i a).val ↔ _
    have := h a
    omega
  · rename_i h
    refine iff_of_false nofun fun h' => h fun a => ?_
    have := h' a
    have := (i a).isLt
    omega

open Idealize.ShloMosaic.ValueIdx

variable {N B w : Nat}

abbrev vecDims (N B : Nat) (wf : ScatterDims.WF ⟨1, ![N]⟩ ⟨2, ![B, 1]⟩ ⟨1, ![B]⟩ [] [0] [0] 1) :
    ScatterDims ⟨1, ![N]⟩ ⟨2, ![B, 1]⟩ ⟨1, ![B]⟩ where
  updateWindowDims := []
  insertedWindowDims := [0]
  scatterDimsToOperandDims := [0]
  indexVectorDim := 1
  wf := wf

variable (wf : ScatterDims.WF ⟨1, ![N]⟩ ⟨2, ![B, 1]⟩ ⟨1, ![B]⟩ [] [0] [0] 1)

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

theorem start_vec (j : (⟨1, ![B]⟩ : Shape).Idx) (idx : IVec ⟨2, ![B, 1]⟩ w) :
    (vecDims N B wf).start j idx 0 = (idx (ix2 (j 0) ⟨0, Nat.one_pos⟩)).toInt := by
  unfold ScatterDims.start
  rw [dif_pos (List.mem_singleton.mpr rfl)]
  congr 2
  exact funext fun b => Fin.ext (by match b with | ⟨0, _⟩ => rfl | ⟨1, _⟩ => rfl)

theorem window_vec (j : (⟨1, ![B]⟩ : Shape).Idx) : (vecDims N B wf).window j 0 = 0 :=
  dif_neg (show ¬ (0 : Fin 1) ∈ (List.finRange 1).filter (· ∉ ([0] : List (Fin 1))) by decide)

/-- The result at `c` is the operand there plus the updates of the positions whose index, read signed, is `c`. -/
theorem hostScatterAdd_vec_apply (x : (⟨1, ![N]⟩ : Shape).Idx → EReal) (idx : IVec ⟨2, ![B, 1]⟩ w)
    (upd : (⟨1, ![B]⟩ : Shape).Idx → EReal) (c : Fin N) :
    Ideal.hostScatterAdd (vecDims N B wf) x idx upd (ix1 c)
      = x (ix1 c) + ∑ b : Fin B, if (idx (ix2 b ⟨0, Nat.one_pos⟩)).toInt = (c.val : Int) then upd (ix1 b) else 0 := by
  unfold Ideal.hostScatterAdd
  rw [Finset.sum_filter, sum_idx1]
  simp only [lands_iff, Fin.forall_fin_one, start_vec, window_vec]
  simp only [Nat.cast_zero, add_zero]
  rfl

end ScatterVec

end Idealize.ShloMosaic

end
-- ==== Proof.LibScatterRows.lean ====
import Idealize.ShloMosaic.PureOps.Ideal
import Idealize.ShloMosaic.Lib.ValueIdx
import proofs.«419305_j85452669321568_1_alg».proof.Proof.LibScatterVec

noncomputable section

open scoped BigOperators

namespace Idealize.ShloMosaic.ScatterRows

open Idealize.ShloMosaic Idealize.ShloMosaic.ValueIdx

variable {N B W w : Nat}

abbrev rowDims (N B W : Nat) (wf : ScatterDims.WF ⟨2, ![N, W]⟩ ⟨2, ![B, 1]⟩ ⟨2, ![B, W]⟩ [1] [0] [0] 1) :
    ScatterDims ⟨2, ![N, W]⟩ ⟨2, ![B, 1]⟩ ⟨2, ![B, W]⟩ where
  updateWindowDims := [1]
  insertedWindowDims := [0]
  scatterDimsToOperandDims := [0]
  indexVectorDim := 1
  wf := wf

variable (wf : ScatterDims.WF ⟨2, ![N, W]⟩ ⟨2, ![B, 1]⟩ ⟨2, ![B, W]⟩ [1] [0] [0] 1)

abbrev rowIdx (b : Fin B) : (⟨2, ![B, 1]⟩ : Shape).Idx := ix2 b ⟨0, Nat.one_pos⟩

theorem start_row (j : (⟨2, ![B, W]⟩ : Shape).Idx) (idx : IVec ⟨2, ![B, 1]⟩ w) :
    (rowDims N B W wf).start j idx 0 = (idx (rowIdx (j 0))).toInt := by
  unfold ScatterDims.start
  rw [dif_pos (List.mem_singleton.mpr rfl)]
  congr 2
  exact funext fun b => Fin.ext (by match b with | ⟨0, _⟩ => rfl | ⟨1, _⟩ => rfl)

theorem start_col (j : (⟨2, ![B, W]⟩ : Shape).Idx) (idx : IVec ⟨2, ![B, 1]⟩ w) :
    (rowDims N B W wf).start j idx 1 = 0 :=
  dif_neg (show ¬ (1 : Fin 2) ∈ ([0] : List (Fin 2)) by decide)

theorem window_row (j : (⟨2, ![B, W]⟩ : Shape).Idx) : (rowDims N B W wf).window j 0 = 0 :=
  dif_neg (show ¬ (0 : Fin 2) ∈ (List.finRange 2).filter (· ∉ ([0] : List (Fin 2))) by decide)

theorem window_col (j : (⟨2, ![B, W]⟩ : Shape).Idx) : (rowDims N B W wf).window j 1 = (j 1).val :=
  dif_pos (show (1 : Fin 2) ∈ (List.finRange 2).filter (· ∉ ([0] : List (Fin 2))) by decide)

/-- The result at `(c, n)` is the operand there plus column `n` of the update rows whose index, read signed, is `c`. -/
theorem hostScatterAdd_rows_apply (x : (⟨2, ![N, W]⟩ : Shape).Idx → EReal) (idx : IVec ⟨2, ![B, 1]⟩ w)
    (upd : (⟨2, ![B, W]⟩ : Shape).Idx → EReal) (c : Fin N) (n : Fin W) :
    Ideal.hostScatterAdd (rowDims N B W wf) x idx upd (ix2 c n)
      = x (ix2 c n) + ∑ b : Fin B, if (idx (rowIdx b)).toInt = (c.val : Int) then upd (ix2 b n) else 0 := by
  have h (b : Fin B) (n' : Fin W) : (rowDims N B W wf).resultIdx? (ix2 b n') idx = some (ix2 c n)
      ↔ n' = n ∧ (idx (rowIdx b)).toInt = (c.val : Int) := by
    rw [ScatterVec.lands_iff, Fin.forall_fin_two, start_row, start_col, window_row, window_col, Fin.ext_iff]
    show (idx (rowIdx b)).toInt + ((0 : Nat) : Int) = (c.val : Int) ∧ (0 : Int) + (n'.val : Int) = (n.val : Int) ↔ _
    omega
  unfold Ideal.hostScatterAdd
  rw [Finset.sum_filter, sum_idx2]
  simp only [h, ite_and, Finset.sum_ite_eq', Finset.mem_univ, if_true]

end Idealize.ShloMosaic.ScatterRows

end
-- ==== Proof.RV.Stats.lean ====
import proofs.«419305_j85452669321568_1_alg».proof.Proof.RefRead
import proofs.«419305_j85452669321568_1_alg».proof.Proof.Math.Spec
import proofs.«419305_j85452669321568_1_alg».proof.Proof.Math.Literals
import proofs.«419305_j85452669321568_1_alg».proof.Proof.LibScatterRows
import proofs.«419305_j85452669321568_1_alg».proof.Proof.LibScatterVec
import Idealize.ShloMosaic.Lib.ValueIdx
import Idealize.ShloMosaic.PureOps.Ideal.Laws
import Idealize.ShloMosaic.Lib.Pipeline.Value

noncomputable section

open scoped BigOperators

namespace Cert.ReferenceIdeal.RV

open Idealize.ShloMosaic Idealize.ShloMosaic.ValueIdx Cert.ReferenceIdeal Cert.ReferenceIdeal.Read

abbrev Feat0 := (⟨S65536x64, .f32⟩ : BufTy).Contents (Elt Ideal)
abbrev Lab0 := (⟨S65536, .i32⟩ : BufTy).Contents (Elt Ideal)
abbrev Feat1 := (⟨S524288x64, .f32⟩ : BufTy).Contents (Elt Ideal)
abbrev Lab1 := (⟨S524288, .i32⟩ : BufTy).Contents (Elt Ideal)

theorem ref_unit_fti (x0 : Feat0) (r : Fin 65536) (e : Fin 64) :
    val_main_v4 (F := Ideal) x0 (ix2 r e) = Cert.Spec.unitRow (fun e' : Fin 64 => x0 (ix2 r e')) e := by
  have hk : ∀ k : Fin 64, idx_main_call0_v1 (idx_main_call0_v2 (idx_main_v3 (ix2 r e))) k = ix2 r k := fun k =>
    funext fun a => Fin.ext (by match a with | ⟨0, _⟩ => rfl | ⟨1, _⟩ => rfl)
  rw [val_main_v4_apply, val_main_v3_apply, val_main_v2_apply, val_main_v0_apply, val_main_call0_v2_apply,
    val_main_call0_v1_apply, val_main_call0_cst_apply, val_main_v1_apply, val_main_cst_apply]
  simp only [val_main_call0_v0_apply, hk, Ideal.hostDivf_def, Ideal.hostUnary_sqrt_def, Ideal.maximumf_def,
    Ideal.mulf_def, Ideal.ofBits_def, Ideal.ofBits_zero_f32, zero_add]
  rfl

theorem idx_v6_row (b : Fin 65536) : idx_main_v6 (ScatterRows.rowIdx b) = ix1 b := eq_ix1 _

theorem ref_sums_fti (x0 : Feat0) (x2 : Lab0) (cls : Fin 50) (d : Fin 64) :
    val_main_v7 (F := Ideal) x0 x2 (ix2 cls d)
      = Cert.Spec.classSum (fun r : Fin 65536 => x2 (ix1 r)) (fun (r : Fin 65536) (e : Fin 64) => x0 (ix2 r e)) cls d := by
  have h : val_main_v7 (F := Ideal) x0 x2
      = Ideal.hostScatterAdd (ScatterRows.rowDims 50 65536 64 Gen.scatter_S50x64_S65536x1_S65536x64_1_0_0_1_wf)
          (val_main_v5 (F := Ideal)) (val_main_v6 (F := Ideal) x2) (val_main_v4 (F := Ideal) x0) := rfl
  rw [h, ScatterRows.hostScatterAdd_rows_apply, val_main_v5_apply, val_main_cst_0_apply]
  simp only [val_main_v6_apply, idx_v6_row, ref_unit_fti, Ideal.ofBits_def, Ideal.ofBits_zero_f32, zero_add]
  rfl

theorem idx_v10_row (b : Fin 65536) : idx_main_v10 (ix2 b (⟨0, Nat.one_pos⟩ : Fin 1)) = ix1 b := eq_ix1 _

theorem ref_cnt_fti (x2 : Lab0) (cls : Fin 50) :
    val_main_v11 (F := Ideal) x2 (ix1 cls) = Cert.Spec.classCount (fun r : Fin 65536 => x2 (ix1 r)) cls := by
  have h : val_main_v11 (F := Ideal) x2
      = Ideal.hostScatterAdd (ScatterVec.vecDims 50 65536 Gen.scatter_S50_S65536x1_S65536_n_0_0_1_wf)
          (val_main_v9 (F := Ideal)) (val_main_v10 (F := Ideal) x2) (val_main_v8 (F := Ideal)) := rfl
  rw [h, ScatterVec.hostScatterAdd_vec_apply, val_main_v9_apply, val_main_cst_2_apply]
  simp only [val_main_v10_apply, idx_v10_row, val_main_v8_apply, val_main_cst_1_apply, Ideal.ofBits_def,
    Ideal.ofBits_zero_f32, zero_add, Cert.Spec.ofBits_one]
  rfl

theorem ref_unit_rcl (x1 : Feat1) (r : Fin 524288) (e : Fin 64) :
    val_main_v40 (F := Ideal) x1 (ix2 r e) = Cert.Spec.unitRow (fun e' : Fin 64 => x1 (ix2 r e')) e := by
  have hk : ∀ k : Fin 64, idx_main_call4_v1 (idx_main_call4_v2 (idx_main_v39 (ix2 r e))) k = ix2 r k := fun k =>
    funext fun a => Fin.ext (by match a with | ⟨0, _⟩ => rfl | ⟨1, _⟩ => rfl)
  rw [val_main_v40_apply, val_main_v39_apply, val_main_v38_apply, val_main_v36_apply, val_main_call4_v2_apply,
    val_main_call4_v1_apply, val_main_call4_cst_apply, val_main_v37_apply, val_main_cst_9_apply]
  simp only [val_main_call4_v0_apply, hk, Ideal.hostDivf_def, Ideal.hostUnary_sqrt_def, Ideal.maximumf_def,
    Ideal.mulf_def, Ideal.ofBits_def, Ideal.ofBits_zero_f32, zero_add]
  rfl

theorem idx_v42_row (b : Fin 524288) : idx_main_v42 (ScatterRows.rowIdx b) = ix1 b := eq_ix1 _

theorem ref_sums_rcl (x1 : Feat1) (x3 : Lab1) (cls : Fin 200) (d : Fin 64) :
    val_main_v43 (F := Ideal) x1 x3 (ix2 cls d)
      = Cert.Spec.classSum (fun r : Fin 524288 => x3 (ix1 r)) (fun (r : Fin 524288) (e : Fin 64) => x1 (ix2 r e)) cls d := by
  have h : val_main_v43 (F := Ideal) x1 x3
      = Ideal.hostScatterAdd (ScatterRows.rowDims 200 524288 64 Gen.scatter_S200x64_S524288x1_S524288x64_1_0_0_1_wf)
          (val_main_v41 (F := Ideal)) (val_main_v42 (F := Ideal) x3) (val_main_v40 (F := Ideal) x1) := rfl
  rw [h, ScatterRows.hostScatterAdd_rows_apply, val_main_v41_apply, val_main_cst_10_apply]
  simp only [val_main_v42_apply, idx_v42_row, ref_unit_rcl, Ideal.ofBits_def, Ideal.ofBits_zero_f32, zero_add]
  rfl

theorem idx_v46_row (b : Fin 524288) : idx_main_v46 (ix2 b (⟨0, Nat.one_pos⟩ : Fin 1)) = ix1 b := eq_ix1 _

theorem ref_cnt_rcl (x3 : Lab1) (cls : Fin 200) :
    val_main_v47 (F := Ideal) x3 (ix1 cls) = Cert.Spec.classCount (fun r : Fin 524288 => x3 (ix1 r)) cls := by
  have h : val_main_v47 (F := Ideal) x3
      = Ideal.hostScatterAdd (ScatterVec.vecDims 200 524288 Gen.scatter_S200_S524288x1_S524288_n_0_0_1_wf)
          (val_main_v45 (F := Ideal)) (val_main_v46 (F := Ideal) x3) (val_main_v44 (F := Ideal)) := rfl
  rw [h, ScatterVec.hostScatterAdd_vec_apply, val_main_v45_apply, val_main_cst_12_apply]
  simp only [val_main_v46_apply, idx_v46_row, val_main_v44_apply, val_main_cst_11_apply, Ideal.ofBits_def,
    Ideal.ofBits_zero_f32, zero_add, Cert.Spec.ofBits_one]
  rfl

end Cert.ReferenceIdeal.RV

end
-- ==== Proof.Math.Finite.lean ====
import Mathlib.Data.EReal.Inv
import Mathlib.Algebra.BigOperators.Group.Finset.Basic
import Idealize.ShloMosaic.PureOps.Ideal
import proofs.«419305_j85452669321568_1_alg».proof.Proof.Math.Spec
import proofs.«419305_j85452669321568_1_alg».proof.Proof.Math.Literals

noncomputable section

open scoped BigOperators

namespace Cert.Spec

open Idealize.ShloMosaic

def IsReal (x : EReal) : Prop := x ≠ ⊤ ∧ x ≠ ⊥

theorem isReal_coe (r : ℝ) : IsReal (r : EReal) := ⟨EReal.coe_ne_top r, EReal.coe_ne_bot r⟩

theorem isReal_zero : IsReal (0 : EReal) := isReal_coe 0

theorem isReal_one : IsReal (1 : EReal) := isReal_coe 1

theorem isReal_half : IsReal (Ideal.ofBits .f32 0x3F000000#32) := ofBits_half ▸ isReal_coe _

theorem IsReal.exists_coe {x : EReal} (h : IsReal x) : ∃ r : ℝ, x = (r : EReal) :=
  ⟨x.toReal, (EReal.coe_toReal h.1 h.2).symm⟩

theorem isReal_add {x y : EReal} (hx : IsReal x) (hy : IsReal y) : IsReal (x + y) := by
  lift x to ℝ using hx; lift y to ℝ using hy; exact isReal_coe (x + y)

theorem isReal_sub {x y : EReal} (hx : IsReal x) (hy : IsReal y) : IsReal (x - y) := by
  lift x to ℝ using hx; lift y to ℝ using hy; exact isReal_coe (x - y)

theorem isReal_mul {x y : EReal} (hx : IsReal x) (hy : IsReal y) : IsReal (x * y) := by
  lift x to ℝ using hx; lift y to ℝ using hy; exact isReal_coe (x * y)

theorem isReal_sum {ι : Type*} (s : Finset ι) (f : ι → EReal) (h : ∀ i ∈ s, IsReal (f i)) :
    IsReal (∑ i ∈ s, f i) :=
  Finset.sum_induction f IsReal (fun _ _ => isReal_add) isReal_zero h

theorem isReal_ite {p : Prop} [Decidable p] {x y : EReal} (hx : IsReal x) (hy : IsReal y) :
    IsReal (if p then x else y) := by
  split <;> assumption

/-- A real over a positive `y` is real: `y` is a positive real or `⊤`, whose inverse is `0`. -/
theorem isReal_div_of_pos {x y : EReal} (hx : IsReal x) (hy : 0 < y) : IsReal (Ideal.div x y) := by
  lift x to ℝ using hx
  rw [Ideal.div, if_neg hy.ne']
  induction y using EReal.rec with
  | bot => exact absurd hy (not_lt.mpr bot_le)
  | top => rw [EReal.inv_top, mul_zero]; exact isReal_zero
  | coe r => rw [← EReal.coe_inv]; exact isReal_coe (x * r⁻¹)

theorem guard_pos (q : EReal) : 0 < max q eps := lt_max_of_lt_right eps_pos

theorem count_guard_pos (n : EReal) : 0 < max n (Ideal.ofBits .f32 0x3F800000#32) :=
  lt_max_of_lt_right (ofBits_one ▸ zero_lt_one)

theorem isReal_unitRow {D : ℕ} (x : Fin D → EReal) (d : Fin D) (hx : IsReal (x d)) : IsReal (unitRow x d) :=
  isReal_div_of_pos hx (guard_pos _)

theorem isReal_classSum {N D C : ℕ} (L : Fin N → BitVec 32) (X : Fin N → Fin D → EReal)
    (hX : ∀ r d, IsReal (X r d)) (c : Fin C) (d : Fin D) : IsReal (classSum L X c d) :=
  isReal_sum _ _ fun r _ => isReal_ite (isReal_unitRow (X r) d (hX r d)) isReal_zero

theorem isReal_logit {D C : ℕ} (x : Fin D → EReal) (P : Fin C → Fin D → EReal) (hx : ∀ d, IsReal (x d))
    (hP : ∀ c d, IsReal (P c d)) (c : Fin C) : IsReal (logit x P c) :=
  isReal_div_of_pos (isReal_sum _ _ fun d _ => isReal_mul (isReal_unitRow x d (hx d)) (hP c d)) temp_pos

end Cert.Spec

end
-- ==== Proof.Math.LossAlgebra.lean ====
import Mathlib.Analysis.SpecialFunctions.Log.Basic
import proofs.«419305_j85452669321568_1_alg».proof.Proof.Math.Finite

noncomputable section

open scoped BigOperators

namespace Cert.Spec

open Idealize.ShloMosaic

variable {C : ℕ}

/-- The log-softmax of a row's logits at class `c`: the logit, shifted by the row's maximum, minus the logarithm of the sum of the shifted exponentials. -/
def logSoftmax (z : Fin C → EReal) (c : Fin C) : EReal :=
  (z c - rowMax z) - Ideal.log (∑ c' : Fin C, Ideal.exp (z c' - rowMax z))

-- Only the term of the class the label names survives the 0/1 mask.
theorem mask_sum_eq (z : Fin C → EReal) (l : BitVec 32) (k : Fin C) (hl : l.toInt = (k.val : Int)) :
    (∑ c : Fin C, (if l.toInt = (c.val : Int) then (1 : EReal) else 0) * z c) = z k := by
  rw [Finset.sum_eq_single k, if_pos hl, one_mul]
  · intro c _ hc
    rw [if_neg fun h => hc (Fin.ext (Int.ofNat_inj.mp (hl.symm.trans h))).symm, zero_mul]
  · exact fun h => absurd (Finset.mem_univ k) h

theorem coe_sum {ι : Type*} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

-- Real logits have a real maximum and a positive real sum of shifted exponentials, so both sides are one identity of real numbers.
theorem rowLoss_eq_neg_logSoftmax (z : Fin C → EReal) (hz : ∀ c, IsReal (z c)) (l : BitVec 32) (k : Fin C)
    (hl : l.toInt = (k.val : Int)) : rowLoss z l = -logSoftmax z k := by
  choose a ha using fun c => (hz c).exists_coe
  obtain ⟨i, -, hi⟩ := Finset.exists_mem_eq_sup (Finset.univ : Finset (Fin C)) ⟨k, Finset.mem_univ k⟩ z
  have hm : rowMax z = (a i : EReal) := by rw [rowMax, hi, ha i]
  have hS : 0 < ∑ c : Fin C, Real.exp (a c - a i) := Finset.sum_pos (fun c _ => Real.exp_pos _) ⟨k, Finset.mem_univ k⟩
  have hsum : (∑ c : Fin C, Ideal.exp (z c - rowMax z)) = ((∑ c : Fin C, Real.exp (a c - a i) : ℝ) : EReal) := by
    rw [hm, coe_sum]
    exact Finset.sum_congr rfl fun c _ => by rw [ha c, ← EReal.coe_sub, Ideal.exp_coe]
  rw [rowLoss, logSoftmax, mask_sum_eq z l k hl, lse, hsum, Ideal.log_coe, if_neg (not_le.mpr hS), hm, ha k,
    ← EReal.coe_add, ← EReal.coe_sub, ← EReal.coe_sub, ← EReal.coe_sub, ← EReal.coe_neg]
  congr 1
  ring

end Cert.Spec

end
-- ==== Proof.RV.Tools.lean ====
import Idealize.ShloMosaic.PureOps.Ideal.Laws
import Idealize.ShloMosaic.PureOps.Reduce
import Idealize.ShloMosaic.Lib.ValueIdx
import Idealize.ShloMosaic.Lib.Affine

noncomputable section

open scoped BigOperators

namespace Cert.ReferenceIdeal.RV

open Idealize.ShloMosaic Idealize.ShloMosaic.ValueIdx

-- A fold of `max` from `⊥` along a row is the row's supremum.
theorem reduce_max_row {R C : Nat} (x : (⟨2, ![R, C]⟩ : Shape).Idx → EReal) (init : (⟨0, ![]⟩ : Shape).Idx → EReal)
    (h' : (⟨2, ![R, C]⟩ : Shape).ReducesTo [1] ⟨1, ![R]⟩) (h : (⟨2, ![R, C]⟩ : Shape).Reduces [1] ⟨1, ![R]⟩)
    (hu : 0 < (⟨0, ![]⟩ : Shape).numel) (hinit : init (Shape.Idx.first hu) = ⊥) (r : Fin R)
    (hl : ∀ k : Fin C, h.lift (ix1 r) k = ix2 r k) :
    Host.reduce (FloatOps.maximumf (F := Ideal) (φ := .f32)) x init h' hu (ix1 r)
      = Finset.univ.sup fun k : Fin C => x (ix2 r k) := by
  rw [Host.reduce_eq_fold_single _ x init h' h hu (ix1 r), hinit,
    show x ∘ h.lift (ix1 r) = fun k : Fin C => x (ix2 r k) from funext fun k => congrArg x (hl k)]
  rfl

-- An `and` along an axis of extent one is the one word there and-ed with the initial word; both set gives a set word.
theorem reduce_and_unit {R : Nat} (p : (⟨3, ![R, 1, 1]⟩ : Shape).Idx → BitVec 1) (init : (⟨0, ![]⟩ : Shape).Idx → BitVec 1)
    (h' : (⟨3, ![R, 1, 1]⟩ : Shape).ReducesTo [2] ⟨2, ![R, 1]⟩) (h : (⟨3, ![R, 1, 1]⟩ : Shape).Reduces [2] ⟨2, ![R, 1]⟩)
    (hu : 0 < (⟨0, ![]⟩ : Shape).numel) (r : Fin R)
    (hl : h.lift (ix2 r 0) ⟨0, Nat.one_pos⟩ = ix3 r 0 0) (hp : p (ix3 r 0 0) = 1#1) (hi : init (Shape.Idx.first hu) = 1#1) :
    Host.reduce IntOp.andi p init h' hu (ix2 r 0) = 1#1 := by
  have key : ∀ (f : Fin 1 → BitVec 1) (b : BitVec 1),
      (Finset.univ : Finset (Fin 1)).fold IntOp.andi b f = IntOp.andi (f ⟨0, Nat.one_pos⟩) b := fun f b => by
    rw [Finset.univ_unique, Finset.fold_singleton]
    rfl
  rw [Host.reduce_eq_fold_single _ p init h' h hu]
  exact (key _ _).trans ((congr (congrArg IntOp.andi ((congrArg p hl).trans hp)) hi).trans (by decide))

-- A label that is not negative is kept by the select on `label < 0`.
theorem select_slt_zero {α : Type} (l : BitVec 32) (a b : α) (h : 0 ≤ l.toInt) :
    Scalar.select (IntOp.cmpi .slt l 0#32) a b = b := by
  have h0 : IntOp.cmpi .slt l 0#32 = 0#1 := eq_zero_of_ne_one fun e => absurd (IntOp.cmpi_slt.mp e) (not_lt.mpr h)
  rw [h0]
  exact select_zero _ _

-- A label in `[0, n)` passes the test `0 ≤ label ≤ c` when `c` is the word of `n - 1`.
theorem bounds_one {n : Int} (l c : BitVec 32) (hc : c.toInt + 1 = n) (h : 0 ≤ l.toInt ∧ l.toInt < n) :
    IntOp.andi (IntOp.cmpi .sge l 0#32) (IntOp.cmpi .sle l c) = 1#1 :=
  IntOp.andi_eq_one.mpr ⟨IntOp.cmpi_sge.mpr h.1, IntOp.cmpi_sle.mpr (by omega)⟩

-- A label in `[0, n)` names a class.
theorem label_class {n : Nat} (l : BitVec 32) (h : 0 ≤ l.toInt ∧ l.toInt < n) : ∃ k : Fin n, l.toInt = (k.val : Int) :=
  ⟨⟨l.toInt.toNat, by omega⟩, (Int.toNat_of_nonneg h.1).symm⟩

def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

theorem sum_ones (n : Nat) : (∑ _a : Fin n, ((1 : ℝ) : EReal)) = ((n : ℝ) : EReal) := by
  rw [Finset.sum_const, Finset.card_univ, Fintype.card_fin, ← EReal.coe_nsmul, nsmul_eq_mul, mul_one]

theorem uitofp_one : FloatOps.uitofp (F := Ideal) .f32 (1#1 : BitVec 1) = ((1 : ℝ) : EReal) := by
  show (((1#1 : BitVec 1).toNat : ℝ) : EReal) = _
  norm_num

end Cert.ReferenceIdeal.RV

end
-- ==== Proof.RV.Logits.lean ====
import proofs.«419305_j85452669321568_1_alg».proof.Proof.RefRead
import proofs.«419305_j85452669321568_1_alg».proof.Proof.Math.Spec

noncomputable section

open scoped BigOperators

namespace Cert.ReferenceIdeal.RV

open Idealize.ShloMosaic Idealize.ShloMosaic.ValueIdx Cert.ReferenceIdeal Cert.ReferenceIdeal.Read Cert.Spec

section fti

variable (x0 : (⟨S65536x64, .f32⟩ : BufTy).Contents (Elt Ideal)) (x2 : (⟨S65536, .i32⟩ : BufTy).Contents (Elt Ideal))
  (x4 : (⟨S50x64, .f32⟩ : BufTy).Contents (Elt Ideal))

/-- Row `r`'s logits against the updated prototypes. -/
abbrev logitsF (r : Fin 65536) : Fin 50 → EReal :=
  logit (fun e : Fin 64 => x0 (ix2 r e)) fun (c : Fin 50) (e : Fin 64) => val_main_v35 x0 x2 x4 (ix2 c e)

-- A row over the larger of its norm and the guard is the specification's unit row.
theorem ref_scaled_fti (r : Fin 65536) (e : Fin 64) :
    val_main_v79 x0 (ix2 r e) = unitRow (fun e' : Fin 64 => x0 (ix2 r e')) e := by
  have es : idx_main_call9_v1 (idx_main_call9_v2 (idx_main_v78 (ix2 r e))) = fun k => ix2 r k :=
    funext fun k => eq_ix2 _
  rw [val_main_v79_apply, val_main_v78_apply, val_main_v77_apply, val_main_v75_apply, val_main_call9_v2_apply,
    val_main_call9_v1_apply, es, val_main_call9_cst_apply, val_main_v76_apply, val_main_cst_20_apply]
  simp only [val_main_call9_v0_apply, Ideal.hostDivf_def, Ideal.maximumf_def, Ideal.hostUnary_sqrt_def, Ideal.mulf_def,
    Ideal.ofBits_def, Ideal.ofBits_zero_f32, zero_add]
  rfl

theorem ref_protoT_fti (e : Fin 64) (cl : Fin 50) :
    val_main_v80 x0 x2 x4 (ix2 e cl) = val_main_v35 x0 x2 x4 (ix2 cl e) :=
  (val_main_v80_apply x0 x2 x4 _).trans (congrArg _ (eq_ix2 _))

theorem ref_logit_fti (r : Fin 65536) (cl : Fin 50) : val_main_v83 x0 x2 x4 (ix2 r cl) = logitsF x0 x2 x4 r cl := by
  have el : lidx_main_v81 (ix2 r cl) = fun k => ix2 r k := funext fun k => eq_ix2 _
  have er : ridx_main_v81 (ix2 r cl) = fun k => ix2 k cl := funext fun k => eq_ix2 _
  rw [val_main_v83_apply, val_main_v81_apply, el, er, val_main_v82_apply, val_main_cst_21_apply]
  simp only [ref_scaled_fti, ref_protoT_fti, Ideal.hostDivf_def, Ideal.ofBits_def]
  rfl

end fti

section rcl

variable (x1 : (⟨S524288x64, .f32⟩ : BufTy).Contents (Elt Ideal)) (x3 : (⟨S524288, .i32⟩ : BufTy).Contents (Elt Ideal))
  (x5 : (⟨S200x64, .f32⟩ : BufTy).Contents (Elt Ideal))

abbrev logitsR (r : Fin 524288) : Fin 200 → EReal :=
  logit (fun e : Fin 64 => x1 (ix2 r e)) fun (c : Fin 200) (e : Fin 64) => val_main_v71 x1 x3 x5 (ix2 c e)

theorem ref_scaled_rcl (r : Fin 524288) (e : Fin 64) :
    val_main_v102 x1 (ix2 r e) = unitRow (fun e' : Fin 64 => x1 (ix2 r e')) e := by
  have es : idx_main_call14_v1 (idx_main_call14_v2 (idx_main_v101 (ix2 r e))) = fun k => ix2 r k :=
    funext fun k => eq_ix2 _
  rw [val_main_v102_apply, val_main_v101_apply, val_main_v100_apply, val_main_v98_apply, val_main_call14_v2_apply,
    val_main_call14_v1_apply, es, val_main_call14_cst_apply, val_main_v99_apply, val_main_cst_28_apply]
  simp only [val_main_call14_v0_apply, Ideal.hostDivf_def, Ideal.maximumf_def, Ideal.hostUnary_sqrt_def, Ideal.mulf_def,
    Ideal.ofBits_def, Ideal.ofBits_zero_f32, zero_add]
  rfl

theorem ref_protoT_rcl (e : Fin 64) (cl : Fin 200) :
    val_main_v103 x1 x3 x5 (ix2 e cl) = val_main_v71 x1 x3 x5 (ix2 cl e) :=
  (val_main_v103_apply x1 x3 x5 _).trans (congrArg _ (eq_ix2 _))

theorem ref_logit_rcl (r : Fin 524288) (cl : Fin 200) : val_main_v106 x1 x3 x5 (ix2 r cl) = logitsR x1 x3 x5 r cl := by
  have el : lidx_main_v104 (ix2 r cl) = fun k => ix2 r k := funext fun k => eq_ix2 _
  have er : ridx_main_v104 (ix2 r cl) = fun k => ix2 k cl := funext fun k => eq_ix2 _
  rw [val_main_v106_apply, val_main_v104_apply, el, er, val_main_v105_apply, val_main_cst_29_apply]
  simp only [ref_scaled_rcl, ref_protoT_rcl, Ideal.hostDivf_def, Ideal.ofBits_def]
  rfl

end rcl

end Cert.ReferenceIdeal.RV

end
-- ==== Proof.RV.LogSoftmax.lean ====
import proofs.«419305_j85452669321568_1_alg».proof.Proof.Math.LossAlgebra
import proofs.«419305_j85452669321568_1_alg».proof.Proof.RV.Tools
import proofs.«419305_j85452669321568_1_alg».proof.Proof.RV.Logits

noncomputable section

open scoped BigOperators

namespace Cert.ReferenceIdeal.RV

open Idealize.ShloMosaic Idealize.ShloMosaic.ValueIdx Cert.ReferenceIdeal Cert.ReferenceIdeal.Read Cert.Spec

section fti

variable (x0 : (⟨S65536x64, .f32⟩ : BufTy).Contents (Elt Ideal)) (x2 : (⟨S65536, .i32⟩ : BufTy).Contents (Elt Ideal))
  (x4 : (⟨S50x64, .f32⟩ : BufTy).Contents (Elt Ideal))

theorem ref_rowmax_fti (r : Fin 65536) :
    val_main_call10_v2 x0 x2 x4 (ix1 r) = rowMax (logitsF x0 x2 x4 r) := by
  have hm : val_main_call10_v0 x0 x2 x4 (ix1 r) = rowMax (logitsF x0 x2 x4 r) :=
    (reduce_max_row _ _ _ (by decide) _ ((val_main_call10_cst_apply _).trans ofBits_neg_inf) r fun k => eq_ix2 _).trans
      (congrArg _ (funext (ref_logit_fti x0 x2 x4 r)))
  rw [val_main_call10_v2_apply, val_main_call10_v1_apply, val_main_call10_cst_0_apply, hm]
  exact max_eq_right (ofBits_neg_inf.trans_le bot_le)

theorem ref_logsoftmax_fti (r : Fin 65536) (cl : Fin 50) :
    val_main_v84 x0 x2 x4 (ix2 r cl) = logSoftmax (logitsF x0 x2 x4 r) cl := by
  have em : ∀ c : Fin 50, idx_main_call10_v3 (idx_main_call10_v4 (ix2 r c)) = ix1 r := fun c => eq_ix1 _
  have es : idx_main_call10_v7 (idx_main_call10_v8 (idx_main_call10_v10 (ix2 r cl))) = fun k => ix2 r k :=
    funext fun k => eq_ix2 _
  rw [val_main_v84_apply, val_main_call10_v10_apply, val_main_call10_v9_apply, val_main_call10_v8_apply,
    val_main_call10_v7_apply, es, val_main_call10_cst_1_apply]
  simp only [val_main_call10_v6_apply, val_main_call10_v5_apply, val_main_call10_v4_apply, val_main_call10_v3_apply, em,
    ref_rowmax_fti, ref_logit_fti, logSoftmax, Ideal.subf_def, Ideal.hostUnary_log_def, Ideal.hostUnary_exp_def,
    Ideal.ofBits_def, Ideal.ofBits_zero_f32, zero_add]

end fti

section rcl

variable (x1 : (⟨S524288x64, .f32⟩ : BufTy).Contents (Elt Ideal)) (x3 : (⟨S524288, .i32⟩ : BufTy).Contents (Elt Ideal))
  (x5 : (⟨S200x64, .f32⟩ : BufTy).Contents (Elt Ideal))

theorem ref_rowmax_rcl (r : Fin 524288) :
    val_main_call15_v2 x1 x3 x5 (ix1 r) = rowMax (logitsR x1 x3 x5 r) := by
  have hm : val_main_call15_v0 x1 x3 x5 (ix1 r) = rowMax (logitsR x1 x3 x5 r) :=
    (reduce_max_row _ _ _ (by decide) _ ((val_main_call15_cst_apply _).trans ofBits_neg_inf) r fun k => eq_ix2 _).trans
      (congrArg _ (funext (ref_logit_rcl x1 x3 x5 r)))
  rw [val_main_call15_v2_apply, val_main_call15_v1_apply, val_main_call15_cst_0_apply, hm]
  exact max_eq_right (ofBits_neg_inf.trans_le bot_le)

theorem ref_logsoftmax_rcl (r : Fin 524288) (cl : Fin 200) :
    val_main_v107 x1 x3 x5 (ix2 r cl) = logSoftmax (logitsR x1 x3 x5 r) cl := by
  have em : ∀ c : Fin 200, idx_main_call15_v3 (idx_main_call15_v4 (ix2 r c)) = ix1 r := fun c => eq_ix1 _
  have es : idx_main_call15_v7 (idx_main_call15_v8 (idx_main_call15_v10 (ix2 r cl))) = fun k => ix2 r k :=
    funext fun k => eq_ix2 _
  rw [val_main_v107_apply, val_main_call15_v10_apply, val_main_call15_v9_apply, val_main_call15_v8_apply,
    val_main_call15_v7_apply, es, val_main_call15_cst_1_apply]
  simp only [val_main_call15_v6_apply, val_main_call15_v5_apply, val_main_call15_v4_apply, val_main_call15_v3_apply, em,
    ref_rowmax_rcl, ref_logit_rcl, logSoftmax, Ideal.subf_def, Ideal.hostUnary_log_def, Ideal.hostUnary_exp_def,
    Ideal.ofBits_def, Ideal.ofBits_zero_f32, zero_add]

end rcl

end Cert.ReferenceIdeal.RV

end
-- ==== Proof.LibGatherAlong.lean ====
import Idealize.ShloMosaic.PureOps.ShapeOps
import Idealize.ShloMosaic.Lib.ValueIdx

namespace Idealize.ShloMosaic.GatherAlong

open Idealize.ShloMosaic Idealize.ShloMosaic.ValueIdx

variable {R C w : Nat}

/-- The dimension numbers of a gather that picks one element per row: operand `[R, C]`, start indices `[R, 1, 1]`, result `[R, 1]`, the row axis batching on both sides. -/
abbrev alongDims (R C : Nat) (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

variable (wf : GatherDims.WF ⟨2, ![R, C]⟩ ⟨3, ![R, 1, 1]⟩ ⟨2, ![R, 1]⟩ [] [1] [0] [1] [0] 2 ![1, 1])

theorem batchCoord_row (j : (⟨2, ![R, 1]⟩ : Shape).Idx) : (alongDims R C wf).batchCoord j 0 = (j 0).val := by
  unfold GatherDims.batchCoord
  rw [dif_pos (show (0 : Fin 2) ∈ (alongDims R C wf).operandBatchingDims from List.mem_singleton.mpr rfl)]
  rfl

theorem batchCoord_col (j : (⟨2, ![R, 1]⟩ : Shape).Idx) : (alongDims R C wf).batchCoord j 1 = 0 :=
  GatherDims.batchCoord_eq_zero _ _ _ (show ¬ (1 : Fin 2) ∈ ([0] : List (Fin 2)) by decide)

-- One operand axis is batching, the other collapsed: no offset coordinate.
theorem offCoord_zero (j : (⟨2, ![R, 1]⟩ : Shape).Idx) (a : Fin 2) : (alongDims R C wf).offCoord j a = 0 := by
  refine GatherDims.offCoord_eq_zero _ _ _ fun h => ?_
  have h' := (GatherDims.mem_sKept _ _).mp h
  match a with
  | ⟨0, _⟩ => exact h'.2 (List.mem_singleton.mpr rfl)
  | ⟨1, _⟩ => exact h'.1 (List.mem_singleton.mpr rfl)

theorem start_row (j : (⟨2, ![R, 1]⟩ : Shape).Idx) (idx : IVec ⟨3, ![R, 1, 1]⟩ w) :
    (alongDims R C wf).start j idx 0 = 0 :=
  GatherDims.start_batching _ _ _ _ (List.mem_singleton.mpr rfl)

theorem start_col (j : (⟨2, ![R, 1]⟩ : Shape).Idx) (idx : IVec ⟨3, ![R, 1, 1]⟩ w) :
    (alongDims R C wf).start j idx 1
      = min (idx (ix3 (j 0) ⟨0, Nat.one_pos⟩ ⟨0, Nat.one_pos⟩)).toInt.toNat (C - 1) := by
  unfold GatherDims.start
  rw [dif_pos (show (1 : Fin 2) ∈ (alongDims R C wf).startIndexMap from List.mem_singleton.mpr rfl)]
  refine congrArg (fun q => min (idx q).toInt.toNat (C - 1)) (funext fun b => Fin.ext ?_)
  match b with
  | ⟨0, _⟩ => rfl
  | ⟨1, h1⟩ => exact Nat.lt_one_iff.mp (Fin.isLt _)
  | ⟨2, _⟩ => rfl

-- A start index that is a column `k` of the operand is not clamped: the element read at `(r, 0)` is the operand's at `(r, k)`.
theorem gather_along_apply {α : Type} (hC : 0 < C) (x : (⟨2, ![R, C]⟩ : Shape).Idx → α) (idx : IVec ⟨3, ![R, 1, 1]⟩ w)
    (r : Fin R) (k : Fin C) (hk : (idx (ix3 r ⟨0, Nat.one_pos⟩ ⟨0, Nat.one_pos⟩)).toInt = (k.val : Int)) :
    Host.gather (alongDims R C wf) x idx (ix2 r ⟨0, Nat.one_pos⟩) = x (ix2 r k) := by
  unfold Host.gather
  congr 1
  funext a
  refine Fin.ext ?_
  have hkC : k.val < C := k.isLt
  match a with
  | ⟨0, _⟩ =>
    show (alongDims R C wf).start _ idx 0 + (alongDims R C wf).batchCoord _ 0 + (alongDims R C wf).offCoord _ 0 = r.val
    rw [start_row, batchCoord_row, offCoord_zero]
    exact Nat.zero_add _
  | ⟨1, _⟩ =>
    show (alongDims R C wf).start _ idx 1 + (alongDims R C wf).batchCoord _ 1 + (alongDims R C wf).offCoord _ 1 = k.val
    rw [start_col, batchCoord_col, offCoord_zero]
    show min (idx (ix3 r ⟨0, Nat.one_pos⟩ ⟨0, Nat.one_pos⟩)).toInt.toNat (C - 1) + 0 + 0 = k.val
    rw [hk]
    omega

end Idealize.ShloMosaic.GatherAlong
-- ==== Proof.RV.Take.lean ====
import proofs.«419305_j85452669321568_1_alg».proof.Proof.RefRead
import proofs.«419305_j85452669321568_1_alg».proof.Proof.LibGatherAlong
import proofs.«419305_j85452669321568_1_alg».proof.Proof.RV.Tools

noncomputable section

open scoped BigOperators

namespace Cert.ReferenceIdeal.RV

open Idealize.ShloMosaic Idealize.ShloMosaic.ValueIdx Cert.ReferenceIdeal Cert.ReferenceIdeal.Read

section fti

variable (x0 : (⟨S65536x64, .f32⟩ : BufTy).Contents (Elt Ideal)) (x2 : (⟨S65536, .i32⟩ : BufTy).Contents (Elt Ideal))
  (x4 : (⟨S50x64, .f32⟩ : BufTy).Contents (Elt Ideal))
  (hlab : ∀ i, 0 ≤ (x2 i).toInt ∧ (x2 i).toInt < 50)

include hlab

theorem ref_valid_fti (r : Fin 65536) : val_main_v73 x2 (ix1 r) = 1#1 := by
  rw [val_main_v73_apply, val_main_v72_apply, val_main_c_apply]
  exact IntOp.cmpi_sge.mpr (hlab (ix1 r)).1

-- The gather's start index of row `r` is the row's label: valid, hence unmasked, and not negative, hence not wrapped.
theorem ref_start_fti (r : Fin 65536) :
    val_main_call11_v5 x2 (ix3 r 0 0) = x2 (ix1 r) := by
  have e : idx_main_v85 (idx_main_call11_v5 (ix3 r 0 0)) = ix1 r :=
    funext fun a => Fin.ext (by match a with | ⟨0, _⟩ => show ((r.val * 1 + 0) * 1 + 0) / 1 = r.val; omega)
  rw [val_main_call11_v5_apply, val_main_call11_v4_apply, val_main_call11_v1_apply, val_main_call11_v0_apply,
    val_main_call11_c_apply, val_main_v85_apply, e, val_main_v74_apply, ref_valid_fti x2 hlab, select_one]
  exact select_slt_zero _ _ _ (hlab (ix1 r)).1

-- The label passes the bounds test, so the pick is the gathered entry, the log-softmax at the label's class.
theorem ref_nll_fti (r : Fin 65536) (k : Fin 50) (hk : (x2 (ix1 r)).toInt = (k.val : Int)) :
    val_main_v92 x0 x2 x4 (ix1 r) = -(val_main_v84 x0 x2 x4 (ix2 r k)) := by
  have e : idx_main_v87 (ix1 r) = ix2 r 0 :=
    funext fun a => Fin.ext (by match a with | ⟨0, _⟩ => show r.val / 1 = r.val; omega | ⟨1, _⟩ => rfl)
  have hs := ref_start_fti x2 hlab r
  have hb : val_main_call11_v12 x2 (ix2 r 0) = 1#1 := by
    refine reduce_and_unit _ _ _ (by decide) _ r (eq_ix3 _) ?_ (val_main_call11_c_3_apply _)
    rw [val_main_call11_v11_apply, val_main_call11_v7_apply, val_main_call11_v10_apply, hs, val_main_call11_v6_apply,
      val_main_call11_c_2_apply, val_main_call11_v9_apply, val_main_call11_v8_apply, val_main_call11_c_1_apply]
    exact bounds_one _ _ (by decide) (hlab (ix1 r))
  have ht : val_main_v86 x0 x2 x4 (ix2 r 0) = val_main_v84 x0 x2 x4 (ix2 r k) := by
    rw [val_main_v86_apply, hb]
    exact (select_one _ _).trans
      (GatherAlong.gather_along_apply _ (by decide) _ _ r k ((congrArg BitVec.toInt hs).trans hk))
  rw [val_main_v92_apply, ref_valid_fti x2 hlab, val_main_v88_apply, val_main_v87_apply, e, ht]
  exact select_one _ _

end fti

section rcl

variable (x1 : (⟨S524288x64, .f32⟩ : BufTy).Contents (Elt Ideal)) (x3 : (⟨S524288, .i32⟩ : BufTy).Contents (Elt Ideal))
  (x5 : (⟨S200x64, .f32⟩ : BufTy).Contents (Elt Ideal))
  (hlab : ∀ i, 0 ≤ (x3 i).toInt ∧ (x3 i).toInt < 200)

include hlab

theorem ref_valid_rcl (r : Fin 524288) : val_main_v96 x3 (ix1 r) = 1#1 := by
  rw [val_main_v96_apply, val_main_v95_apply, val_main_c_26_apply]
  exact IntOp.cmpi_sge.mpr (hlab (ix1 r)).1

theorem ref_start_rcl (r : Fin 524288) :
    val_main_call16_v5 x3 (ix3 r 0 0) = x3 (ix1 r) := by
  have e : idx_main_v108 (idx_main_call16_v5 (ix3 r 0 0)) = ix1 r :=
    funext fun a => Fin.ext (by match a with | ⟨0, _⟩ => show ((r.val * 1 + 0) * 1 + 0) / 1 = r.val; omega)
  rw [val_main_call16_v5_apply, val_main_call16_v4_apply, val_main_call16_v1_apply, val_main_call16_v0_apply,
    val_main_call16_c_apply, val_main_v108_apply, e, val_main_v97_apply, ref_valid_rcl x3 hlab, select_one]
  exact select_slt_zero _ _ _ (hlab (ix1 r)).1

theorem ref_nll_rcl (r : Fin 524288) (k : Fin 200) (hk : (x3 (ix1 r)).toInt = (k.val : Int)) :
    val_main_v115 x1 x3 x5 (ix1 r) = -(val_main_v107 x1 x3 x5 (ix2 r k)) := by
  have e : idx_main_v110 (ix1 r) = ix2 r 0 :=
    funext fun a => Fin.ext (by match a with | ⟨0, _⟩ => show r.val / 1 = r.val; omega | ⟨1, _⟩ => rfl)
  have hs := ref_start_rcl x3 hlab r
  have hb : val_main_call16_v12 x3 (ix2 r 0) = 1#1 := by
    refine reduce_and_unit _ _ _ (by decide) _ r (eq_ix3 _) ?_ (val_main_call16_c_3_apply _)
    rw [val_main_call16_v11_apply, val_main_call16_v7_apply, val_main_call16_v10_apply, hs, val_main_call16_v6_apply,
      val_main_call16_c_2_apply, val_main_call16_v9_apply, val_main_call16_v8_apply, val_main_call16_c_1_apply]
    exact bounds_one _ _ (by decide) (hlab (ix1 r))
  have ht : val_main_v109 x1 x3 x5 (ix2 r 0) = val_main_v107 x1 x3 x5 (ix2 r k) := by
    rw [val_main_v109_apply, hb]
    exact (select_one _ _).trans
      (GatherAlong.gather_along_apply _ (by decide) _ _ r k ((congrArg BitVec.toInt hs).trans hk))
  rw [val_main_v115_apply, ref_valid_rcl x3 hlab, val_main_v111_apply, val_main_v110_apply, e, ht]
  exact select_one _ _

end rcl

end Cert.ReferenceIdeal.RV

end
-- ==== Proof.RV.Loss.lean ====
import proofs.«419305_j85452669321568_1_alg».proof.Proof.RV.LogSoftmax
import proofs.«419305_j85452669321568_1_alg».proof.Proof.RV.Take

noncomputable section

open scoped BigOperators

namespace Cert.ReferenceIdeal.RV

open Idealize.ShloMosaic Idealize.ShloMosaic.ValueIdx Cert.ReferenceIdeal Cert.ReferenceIdeal.Read Cert.Spec

theorem ref_loss_fti (x0 : (⟨S65536x64, .f32⟩ : BufTy).Contents (Elt Ideal)) (x2 : (⟨S65536, .i32⟩ : BufTy).Contents (Elt Ideal)) (x4 : (⟨S50x64, .f32⟩ : BufTy).Contents (Elt Ideal))
    (hx0 : ∀ i, x0 i ≠ ⊤ ∧ x0 i ≠ ⊥) (hP : ∀ i, val_main_v35 (F := Ideal) x0 x2 x4 i ≠ ⊤ ∧ val_main_v35 (F := Ideal) x0 x2 x4 i ≠ ⊥) (hlab : ∀ i, 0 ≤ (x2 i).toInt ∧ (x2 i).toInt < 50) (i : S_.Idx) :
    val_main_v94 (F := Ideal) x0 x2 x4 i = Ideal.div (Cert.Spec.lossSum (fun r : Fin 65536 => x2 (ix1 r)) (fun (r : Fin 65536) (e : Fin 64) => x0 (ix2 r e)) (fun (cl : Fin 50) (e : Fin 64) => val_main_v35 (F := Ideal) x0 x2 x4 (ix2 cl e))) ((65536 : ℝ) : EReal) := by
  have hr : ∀ r : Fin 65536, val_main_v92 x0 x2 x4 (ix1 r) = rowLoss (logitsF x0 x2 x4 r) (x2 (ix1 r)) := fun r => by
    obtain ⟨k, hk⟩ := label_class (x2 (ix1 r)) (hlab (ix1 r))
    rw [ref_nll_fti x0 x2 x4 hlab r k hk, ref_logsoftmax_fti, rowLoss_eq_neg_logSoftmax _
      (isReal_logit _ _ (fun d => hx0 (ix2 r d)) fun c d => hP (ix2 c d)) _ k hk]
  have hc : val_main_v91 x2 i = ((65536 : ℝ) : EReal) := by
    rw [val_main_v91_apply, val_main_v90_apply, val_main_cst_22_apply, val_main_cst_23_apply, sum_idx1]
    simp only [val_main_v89_apply, ref_valid_fti x2 hlab, uitofp_one, sum_ones, Ideal.maximumf_def, Ideal.ofBits_def,
      Ideal.ofBits_zero_f32, zero_add, ofBits_one, Nat.cast_ofNat]
    rw [← EReal.coe_one]
    exact max_eq_left (EReal.coe_le_coe_iff.mpr (by norm_num))
  rw [val_main_v94_apply, val_main_v93_apply, val_main_cst_25_apply, hc, sum_idx1]
  simp only [hr, Ideal.hostDivf_def, Ideal.ofBits_def, Ideal.ofBits_zero_f32, zero_add]
  rfl

theorem ref_loss_rcl (x1 : (⟨S524288x64, .f32⟩ : BufTy).Contents (Elt Ideal)) (x3 : (⟨S524288, .i32⟩ : BufTy).Contents (Elt Ideal)) (x5 : (⟨S200x64, .f32⟩ : BufTy).Contents (Elt Ideal))
    (hx1 : ∀ i, x1 i ≠ ⊤ ∧ x1 i ≠ ⊥) (hP : ∀ i, val_main_v71 (F := Ideal) x1 x3 x5 i ≠ ⊤ ∧ val_main_v71 (F := Ideal) x1 x3 x5 i ≠ ⊥) (hlab : ∀ i, 0 ≤ (x3 i).toInt ∧ (x3 i).toInt < 200) (i : S_.Idx) :
    val_main_v117 (F := Ideal) x1 x3 x5 i = Ideal.div (Cert.Spec.lossSum (fun r : Fin 524288 => x3 (ix1 r)) (fun (r : Fin 524288) (e : Fin 64) => x1 (ix2 r e)) (fun (cl : Fin 200) (e : Fin 64) => val_main_v71 (F := Ideal) x1 x3 x5 (ix2 cl e))) ((524288 : ℝ) : EReal) := by
  have hr : ∀ r : Fin 524288, val_main_v115 x1 x3 x5 (ix1 r) = rowLoss (logitsR x1 x3 x5 r) (x3 (ix1 r)) := fun r => by
    obtain ⟨k, hk⟩ := label_class (x3 (ix1 r)) (hlab (ix1 r))
    rw [ref_nll_rcl x1 x3 x5 hlab r k hk, ref_logsoftmax_rcl, rowLoss_eq_neg_logSoftmax _
      (isReal_logit _ _ (fun d => hx1 (ix2 r d)) fun c d => hP (ix2 c d)) _ k hk]
  have hc : val_main_v114 x3 i = ((524288 : ℝ) : EReal) := by
    rw [val_main_v114_apply, val_main_v113_apply, val_main_cst_30_apply, val_main_cst_31_apply, sum_idx1]
    simp only [val_main_v112_apply, ref_valid_rcl x3 hlab, uitofp_one, sum_ones, Ideal.maximumf_def, Ideal.ofBits_def,
      Ideal.ofBits_zero_f32, zero_add, ofBits_one, Nat.cast_ofNat]
    rw [← EReal.coe_one]
    exact max_eq_left (EReal.coe_le_coe_iff.mpr (by norm_num))
  rw [val_main_v117_apply, val_main_v116_apply, val_main_cst_33_apply, hc, sum_idx1]
  simp only [hr, Ideal.hostDivf_def, Ideal.ofBits_def, Ideal.ofBits_zero_f32, zero_add]
  rfl

end Cert.ReferenceIdeal.RV

end
-- ==== Proof.RV.Upd.lean ====
import proofs.«419305_j85452669321568_1_alg».proof.Proof.RefRead
import proofs.«419305_j85452669321568_1_alg».proof.Proof.LibProtoUpd

noncomputable section

namespace Cert.ReferenceIdeal.RV

open Idealize.ShloMosaic Cert.ReferenceIdeal Cert.ReferenceIdeal.Gen Cert.ReferenceIdeal.Read

variable {F : FTy → Type} [FloatOps F]

def updFtiR (S : (⟨S50x64, .f32⟩ : BufTy).Contents (Elt F)) (cnt : (⟨S50, .f32⟩ : BufTy).Contents (Elt F))
    (P : (⟨S50x64, .f32⟩ : BufTy).Contents (Elt F)) : (⟨S50x64, .f32⟩ : BufTy).Contents (Elt F) :=
  protoUpd (F := F) (C := 50) (D := 64) S cnt P

theorem val_main_v35_eq (x0 : (⟨S65536x64, .f32⟩ : BufTy).Contents (Elt F))
    (x2 : (⟨S65536, .i32⟩ : BufTy).Contents (Elt F)) (x4 : (⟨S50x64, .f32⟩ : BufTy).Contents (Elt F)) :
    val_main_v35 (F := F) x0 x2 x4 = updFtiR (val_main_v7 (F := F) x0 x2) (val_main_v11 (F := F) x2) x4 := rfl

def updRclR (S : (⟨S200x64, .f32⟩ : BufTy).Contents (Elt F)) (cnt : (⟨S200, .f32⟩ : BufTy).Contents (Elt F))
    (P : (⟨S200x64, .f32⟩ : BufTy).Contents (Elt F)) : (⟨S200x64, .f32⟩ : BufTy).Contents (Elt F) :=
  protoUpd (F := F) (C := 200) (D := 64) S cnt P

theorem val_main_v71_eq (x1 : (⟨S524288x64, .f32⟩ : BufTy).Contents (Elt F))
    (x3 : (⟨S524288, .i32⟩ : BufTy).Contents (Elt F)) (x5 : (⟨S200x64, .f32⟩ : BufTy).Contents (Elt F)) :
    val_main_v71 (F := F) x1 x3 x5 = updRclR (val_main_v43 (F := F) x1 x3) (val_main_v47 (F := F) x3) x5 := rfl

end Cert.ReferenceIdeal.RV

end
-- ==== Proof.RV.ProtoReal.lean ====
import proofs.«419305_j85452669321568_1_alg».proof.Proof.RV.Upd
import proofs.«419305_j85452669321568_1_alg».proof.Proof.RV.Stats
import proofs.«419305_j85452669321568_1_alg».proof.Proof.Math.Finite

noncomputable section

namespace Cert.ReferenceIdeal.RV

open Idealize.ShloMosaic Idealize.ShloMosaic.ValueIdx Cert.ReferenceIdeal Cert.ReferenceIdeal.Gen Cert.ReferenceIdeal.Read Cert.Spec

/-- Every divisor is a maximum with a positive word, so the update of real class sums and real prototypes is real. -/
theorem isReal_protoUpd {C D : Nat} (S : FVec Ideal ⟨2, ![C, D]⟩ .f32) (cnt : FVec Ideal ⟨1, ![C]⟩ .f32)
    (P : FVec Ideal ⟨2, ![C, D]⟩ .f32) (bc b0 b1 r bc1 bcd) (hS : ∀ i, IsReal (S i)) (hP : ∀ i, IsReal (P i)) (i) :
    IsReal (protoUpd S cnt P bc b0 b1 r bc1 bcd i) :=
  isReal_ite (isReal_div_of_pos (isReal_add (isReal_mul isReal_half (hP i)) (isReal_mul isReal_half
    (isReal_div_of_pos (isReal_div_of_pos (hS i) (count_guard_pos _)) (guard_pos _)))) (guard_pos _)) (hP i)

theorem proto_real_fti (x0 : (⟨S65536x64, .f32⟩ : BufTy).Contents (Elt Ideal)) (x2 : (⟨S65536, .i32⟩ : BufTy).Contents (Elt Ideal)) (x4 : (⟨S50x64, .f32⟩ : BufTy).Contents (Elt Ideal)) (hx0 : ∀ i, x0 i ≠ ⊤ ∧ x0 i ≠ ⊥) (hx4 : ∀ i, x4 i ≠ ⊤ ∧ x4 i ≠ ⊥) :
    ∀ i, val_main_v35 (F := Ideal) x0 x2 x4 i ≠ ⊤ ∧ val_main_v35 (F := Ideal) x0 x2 x4 i ≠ ⊥ := by
  rw [val_main_v35_eq]
  refine isReal_protoUpd _ _ _ _ _ _ _ _ _ (fun i => ?_) hx4
  obtain ⟨c, d, rfl⟩ : ∃ c d, i = ix2 c d := ⟨i 0, i 1, eq_ix2 i⟩
  rw [ref_sums_fti]
  exact isReal_classSum _ _ (fun _ _ => hx0 _) _ _

theorem proto_real_rcl (x1 : (⟨S524288x64, .f32⟩ : BufTy).Contents (Elt Ideal)) (x3 : (⟨S524288, .i32⟩ : BufTy).Contents (Elt Ideal)) (x5 : (⟨S200x64, .f32⟩ : BufTy).Contents (Elt Ideal)) (hx1 : ∀ i, x1 i ≠ ⊤ ∧ x1 i ≠ ⊥) (hx5 : ∀ i, x5 i ≠ ⊤ ∧ x5 i ≠ ⊥) :
    ∀ i, val_main_v71 (F := Ideal) x1 x3 x5 i ≠ ⊤ ∧ val_main_v71 (F := Ideal) x1 x3 x5 i ≠ ⊥ := by
  rw [val_main_v71_eq]
  refine isReal_protoUpd _ _ _ _ _ _ _ _ _ (fun i => ?_) hx5
  obtain ⟨c, d, rfl⟩ : ∃ c d, i = ix2 c d := ⟨i 0, i 1, eq_ix2 i⟩
  rw [ref_sums_rcl]
  exact isReal_classSum _ _ (fun _ _ => hx1 _) _ _

end Cert.ReferenceIdeal.RV

end
-- ==== Proof.UpdSame.lean ====
import proofs.«419305_j85452669321568_1_alg».proof.Proof.KV.Upd
import proofs.«419305_j85452669321568_1_alg».proof.Proof.RV.Upd

noncomputable section

namespace Cert.Proof

open Idealize.ShloMosaic

theorem upd_fti_same {F : FTy → Type} [FloatOps F] (S : FVec F Cert.KernelIdeal.S50x64 .f32)
    (cnt : FVec F Cert.KernelIdeal.S50 .f32) (P : FVec F Cert.KernelIdeal.S50x64 .f32) :
    Cert.KernelIdeal.KV.updFti (F := F) S cnt P = Cert.ReferenceIdeal.RV.updFtiR (F := F) S cnt P := rfl

theorem upd_rcl_same {F : FTy → Type} [FloatOps F] (S : FVec F Cert.KernelIdeal.S200x64 .f32)
    (cnt : FVec F Cert.KernelIdeal.S200 .f32) (P : FVec F Cert.KernelIdeal.S200x64 .f32) :
    Cert.KernelIdeal.KV.updRcl (F := F) S cnt P = Cert.ReferenceIdeal.RV.updRclR (F := F) S cnt P := rfl

end Cert.Proof

end
-- ==== Proof.RV.Result.lean ====
import proofs.«419305_j85452669321568_1_alg».proof.Proof.RV.Stats
import proofs.«419305_j85452669321568_1_alg».proof.Proof.RV.Loss
import proofs.«419305_j85452669321568_1_alg».proof.Proof.RV.ProtoReal
import proofs.«419305_j85452669321568_1_alg».proof.Proof.RV.Upd
import proofs.«419305_j85452669321568_1_alg».proof.Proof.UpdSame
import proofs.«419305_j85452669321568_1_alg».proof.Proof.Goal
import Idealize.ShloMosaic.Lib.ValueIdx

noncomputable section

namespace Cert.ReferenceIdeal.RV

open Idealize.ShloMosaic Idealize.ShloMosaic.ValueIdx Cert.ReferenceIdeal Cert.ReferenceIdeal.Read Cert.Spec

-- The reference's scattered sums and counts are the specification's tables, its update is the kernel's, so its loss stage is the specification's loss.
theorem ref_sums_arr_fti (x0 : (⟨S65536x64, .f32⟩ : BufTy).Contents (Elt Ideal))
    (x2 : (⟨S65536, .i32⟩ : BufTy).Contents (Elt Ideal)) :
    val_main_v7 (F := Ideal) x0 x2 = Cert.Proof.sumsFti x0 x2 := by
  funext i
  obtain ⟨c, d, rfl⟩ : ∃ (c : Fin 50) (d : Fin 64), i = ix2 c d := ⟨i 0, i 1, eq_ix2 i⟩
  exact ref_sums_fti x0 x2 c d

theorem ref_cnt_arr_fti (x2 : (⟨S65536, .i32⟩ : BufTy).Contents (Elt Ideal)) :
    val_main_v11 (F := Ideal) x2 = Cert.Proof.cntFti x2 := by
  funext i
  obtain ⟨c, rfl⟩ : ∃ c : Fin 50, i = ix1 c := ⟨i 0, eq_ix1 i⟩
  exact ref_cnt_fti x2 c

theorem ref_proto_fti (x0 : (⟨S65536x64, .f32⟩ : BufTy).Contents (Elt Ideal))
    (x2 : (⟨S65536, .i32⟩ : BufTy).Contents (Elt Ideal)) (x4 : (⟨S50x64, .f32⟩ : BufTy).Contents (Elt Ideal)) :
    val_main_v35 (F := Ideal) x0 x2 x4
      = Cert.KernelIdeal.KV.updFti (F := Ideal) (Cert.Proof.sumsFti x0 x2) (Cert.Proof.cntFti x2) x4 := by
  rw [val_main_v35_eq, ref_sums_arr_fti, ref_cnt_arr_fti]
  exact (Cert.Proof.upd_fti_same (F := Ideal) (Cert.Proof.sumsFti x0 x2) (Cert.Proof.cntFti x2) x4).symm

theorem ref_result_fti (x0 : (⟨S65536x64, .f32⟩ : BufTy).Contents (Elt Ideal))
    (x2 : (⟨S65536, .i32⟩ : BufTy).Contents (Elt Ideal)) (x4 : (⟨S50x64, .f32⟩ : BufTy).Contents (Elt Ideal))
    (hx0 : ∀ i, x0 i ≠ ⊤ ∧ x0 i ≠ ⊥) (hx4 : ∀ i, x4 i ≠ ⊤ ∧ x4 i ≠ ⊥)
    (hlab : ∀ i, 0 ≤ (x2 i).toInt ∧ (x2 i).toInt < 50) :
    val_main_v94 (F := Ideal) x0 x2 x4 = fun _ => Cert.Proof.lossFti x0 x2 x4 := by
  funext i
  rw [ref_loss_fti x0 x2 x4 hx0 (proto_real_fti x0 x2 x4 hx0 hx4) hlab i, ref_proto_fti]
  rfl

theorem ref_sums_arr_rcl (x1 : (⟨S524288x64, .f32⟩ : BufTy).Contents (Elt Ideal))
    (x3 : (⟨S524288, .i32⟩ : BufTy).Contents (Elt Ideal)) :
    val_main_v43 (F := Ideal) x1 x3 = Cert.Proof.sumsRcl x1 x3 := by
  funext i
  obtain ⟨c, d, rfl⟩ : ∃ (c : Fin 200) (d : Fin 64), i = ix2 c d := ⟨i 0, i 1, eq_ix2 i⟩
  exact ref_sums_rcl x1 x3 c d

theorem ref_cnt_arr_rcl (x3 : (⟨S524288, .i32⟩ : BufTy).Contents (Elt Ideal)) :
    val_main_v47 (F := Ideal) x3 = Cert.Proof.cntRcl x3 := by
  funext i
  obtain ⟨c, rfl⟩ : ∃ c : Fin 200, i = ix1 c := ⟨i 0, eq_ix1 i⟩
  exact ref_cnt_rcl x3 c

theorem ref_proto_rcl (x1 : (⟨S524288x64, .f32⟩ : BufTy).Contents (Elt Ideal))
    (x3 : (⟨S524288, .i32⟩ : BufTy).Contents (Elt Ideal)) (x5 : (⟨S200x64, .f32⟩ : BufTy).Contents (Elt Ideal)) :
    val_main_v71 (F := Ideal) x1 x3 x5
      = Cert.KernelIdeal.KV.updRcl (F := Ideal) (Cert.Proof.sumsRcl x1 x3) (Cert.Proof.cntRcl x3) x5 := by
  rw [val_main_v71_eq, ref_sums_arr_rcl, ref_cnt_arr_rcl]
  exact (Cert.Proof.upd_rcl_same (F := Ideal) (Cert.Proof.sumsRcl x1 x3) (Cert.Proof.cntRcl x3) x5).symm

theorem ref_result_rcl (x1 : (⟨S524288x64, .f32⟩ : BufTy).Contents (Elt Ideal))
    (x3 : (⟨S524288, .i32⟩ : BufTy).Contents (Elt Ideal)) (x5 : (⟨S200x64, .f32⟩ : BufTy).Contents (Elt Ideal))
    (hx1 : ∀ i, x1 i ≠ ⊤ ∧ x1 i ≠ ⊥) (hx5 : ∀ i, x5 i ≠ ⊤ ∧ x5 i ≠ ⊥)
    (hlab : ∀ i, 0 ≤ (x3 i).toInt ∧ (x3 i).toInt < 200) :
    val_main_v117 (F := Ideal) x1 x3 x5 = fun _ => Cert.Proof.lossRcl x1 x3 x5 := by
  funext i
  rw [ref_loss_rcl x1 x3 x5 hx1 (proto_real_rcl x1 x3 x5 hx1 hx5) hlab i, ref_proto_rcl]
  rfl

end Cert.ReferenceIdeal.RV

end
-- ==== Proof.Equal.lean ====
import proofs.«419305_j85452669321568_1_alg».proof.Defs
import proofs.«419305_j85452669321568_1_alg».proof.Proof.Gen.KernelIdeal
import proofs.«419305_j85452669321568_1_alg».proof.Proof.Gen.ReferenceIdeal
import proofs.«419305_j85452669321568_1_alg».proof.Proof.Gen.Pre_finite_inputs
import proofs.«419305_j85452669321568_1_alg».proof.Proof.PreRead
import proofs.«419305_j85452669321568_1_alg».proof.Proof.KV.Run
import proofs.«419305_j85452669321568_1_alg».proof.Proof.KV.Result
import proofs.«419305_j85452669321568_1_alg».proof.Proof.RV.Run
import proofs.«419305_j85452669321568_1_alg».proof.Proof.RV.Result
import proofs.«419305_j85452669321568_1_alg».proof.Proof.Goal

noncomputable section

namespace Cert.Proof

open Idealize.ShloMosaic Idealize.SL.Sem

instance instKernelIdealFacts : Cert.KernelIdeal.Facts := Cert.KernelIdeal.Gen.facts
instance instReferenceIdealFacts : Cert.ReferenceIdeal.Facts := Cert.ReferenceIdeal.Gen.facts
instance instPreFacts : Cert.Pre_finite_inputs.Facts := Cert.Pre_finite_inputs.Gen.facts

-- The reference's run with its two results dropped.
theorem frame_ri : Cert.frame_ReferenceIdeal := fun m ρ _ =>
  (θ_run Cert.ReferenceIdeal.defs _ _).mono (fun _ h c => (h c).2.2) (Cert.ReferenceIdeal.RV.run (F := Ideal) m ρ)

-- Both runs end at the specification's two losses; the reference's inputs are the kernel's by agreement, and real and in range by the precondition.
theorem algebraic : Cert.algebraic_KernelIdeal_ReferenceIdeal := by
  intro m ρ m' ρ' hpre hagree
  refine ⟨fun c => fun _ => lossFti (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4)),
    fun c => fun _ => lossRcl (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KV.kernel_result_fti m ρ c),
        (h c).2.1.trans (Cert.KernelIdeal.KV.kernel_result_rcl m ρ c), (h c).2.2⟩)
      (Cert.KernelIdeal.KV.run_results (F := Ideal) m ρ)
  · refine (θ_run Cert.ReferenceIdeal.defs _ _).mono (fun _ h c => ?_) (Cert.ReferenceIdeal.RV.run (F := Ideal) m' ρ')
    obtain ⟨h0, h1, h2, h3, h4, h5⟩ := hagree c
    obtain ⟨d0, d1, d4, d5, d2, d3⟩ := Cert.PreRead.decode _ _ _ _ _ _ (hpre c)
    refine ⟨(h c).1.trans ?_, (h c).2.1.trans ?_, (h c).2.2⟩
    · rw [h0, h2, h4]
      exact Cert.ReferenceIdeal.RV.ref_result_fti _ _ _ d0 d4 d2
    · rw [h1, h3, h5]
      exact Cert.ReferenceIdeal.RV.ref_result_rcl _ _ _ d1 d5 d3

end Cert.Proof

end
-- ==== Proof.lean ====
import proofs.«419305_j85452669321568_1_alg».proof.Defs
import proofs.«419305_j85452669321568_1_alg».proof.Proof.Gen.Kernel
import proofs.«419305_j85452669321568_1_alg».proof.Proof.Gen.Kernel.Skeleton
import proofs.«419305_j85452669321568_1_alg».proof.Proof.Gen.Kernel.Launch
import proofs.«419305_j85452669321568_1_alg».proof.Proof.Gen.Kernel.Points
import proofs.«419305_j85452669321568_1_alg».proof.Proof.Gen.Kernel.Frame
import proofs.«419305_j85452669321568_1_alg».proof.Proof.Gen.KernelIdeal
import proofs.«419305_j85452669321568_1_alg».proof.Proof.Gen.KernelIdeal.Skeleton
import proofs.«419305_j85452669321568_1_alg».proof.Proof.Gen.KernelIdeal.Launch
import proofs.«419305_j85452669321568_1_alg».proof.Proof.Gen.KernelIdeal.Points
import proofs.«419305_j85452669321568_1_alg».proof.Proof.Gen.KernelIdeal.Frame
import proofs.«419305_j85452669321568_1_alg».proof.Proof.Gen.ReferenceIdeal
import proofs.«419305_j85452669321568_1_alg».proof.Proof.Gen.Pre_finite_inputs
import proofs.«419305_j85452669321568_1_alg».proof.Proof.Equal
import Idealize.ShloMosaic.Adequacy
import Idealize.ShloMosaic.Init

noncomputable section

namespace Cert.Proof

open Idealize.ShloMosaic Idealize.SL.Sem Cert.Kernel

instance instKernelFacts : Cert.Kernel.Facts := Cert.Kernel.Gen.facts

-- The two kernel programs run and keep their arguments: their frames.
theorem frame_k : Cert.frame_Kernel := fun m ρ _ => Cert.Kernel.Gen.frame m ρ

theorem frame_ki : Cert.frame_KernelIdeal := fun m ρ _ => Cert.KernelIdeal.Gen.frame m ρ

-- The two round trips through the narrower format that the idealization removed: the rule's statement at each shape.
theorem preserves : Cert.preserves_Kernel_KernelIdeal :=
  ⟨IdealRules.truncf_extf.statement _ _ _, IdealRules.truncf_extf.statement _ _ _⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
